-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S4096x1024 : Shape := ⟨2, ![4096, 1024]⟩
abbrev S50257x1024 : Shape := ⟨2, ![50257, 1024]⟩
abbrev S4096x2048 : Shape := ⟨2, ![4096, 2048]⟩
abbrev S4096 : Shape := ⟨1, ![4096]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S4096 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S4096x1024 .f32) (main_arg3 : FVec F S50257x1024 .f32) (main_arg4 : FVec F S4096x2048 .f32) (main_arg5 : FVec F S4096 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S4096x1024 : Shape := ⟨2, ![4096, 1024]⟩
abbrev S50257x1024 : Shape := ⟨2, ![50257, 1024]⟩
abbrev S4096x2048 : Shape := ⟨2, ![4096, 2048]⟩
abbrev S4096 : Shape := ⟨1, ![4096]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S1x4096 : Shape := ⟨2, ![1, 4096]⟩
abbrev S1x1 : Shape := ⟨2, ![1, 1]⟩
abbrev S1024x1024 : Shape := ⟨2, ![1024, 1024]⟩
abbrev S1x3072 : Shape := ⟨2, ![1, 3072]⟩
abbrev S49152x1024 : Shape := ⟨2, ![49152, 1024]⟩
abbrev S49152 : Shape := ⟨1, ![49152]⟩
abbrev S1x49152 : Shape := ⟨2, ![1, 49152]⟩
abbrev S1105x1024 : Shape := ⟨2, ![1105, 1024]⟩
abbrev S1105 : Shape := ⟨1, ![1105]⟩
abbrev S1x1105 : Shape := ⟨2, ![1, 1105]⟩
abbrev S1x50257 : Shape := ⟨2, ![1, 50257]⟩

abbrev nBuf : Space → Nat
  | .hbm => 85
  | .vmem => 36
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S4096x1024, .f32⟩
  | .hbm, ⟨3, _⟩ => ⟨S50257x1024, .f32⟩
  | .hbm, ⟨4, _⟩ => ⟨S4096x2048, .f32⟩
  | .hbm, ⟨5, _⟩ => ⟨S4096, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1x1024, .f32⟩
  | .hbm, ⟨23, _⟩ => ⟨S1x2048, .f32⟩
  | .hbm, ⟨24, _⟩ => ⟨S1x4096, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1x1, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1, .f32⟩
  | .hbm, ⟨36, _⟩ => ⟨S1x1, .f32⟩
  | .hbm, ⟨37, _⟩ => ⟨S1x1, .f32⟩
  | .hbm, ⟨38, _⟩ => ⟨S1x4096, .f32⟩
  | .hbm, ⟨39, _⟩ => ⟨S1x4096, .f32⟩
  | .hbm, ⟨40, _⟩ => ⟨S1x1024, .f32⟩
  | .hbm, ⟨41, _⟩ => ⟨S1x2048, .f32⟩
  | .hbm, ⟨42, _⟩ => ⟨S1x1024, .f32⟩
  | .hbm, ⟨43, _⟩ => ⟨S1x3072, .f32⟩
  | .hbm, ⟨44, _⟩ => ⟨S1x3072, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S49152x1024, .f32⟩
  | .hbm, ⟨79, _⟩ => ⟨S49152, .f32⟩
  | .hbm, ⟨80, _⟩ => ⟨S1x49152, .f32⟩
  | .hbm, ⟨81, _⟩ => ⟨S1105x1024, .f32⟩
  | .hbm, ⟨82, _⟩ => ⟨S1105, .f32⟩
  | .hbm, ⟨83, _⟩ => ⟨S1x1105, .f32⟩
  | .hbm, ⟨84, _⟩ => ⟨S1x50257, .f32⟩
  | .local _ .vmem, ⟨0, _⟩ => ⟨S1x2048, .f32⟩
  | .local _ .vmem, ⟨1, _⟩ => ⟨S1024x2048, .f32⟩
  | .local _ .vmem, ⟨2, _⟩ => ⟨S1024x2048, .f32⟩
  | .local _ .vmem, ⟨3, _⟩ => ⟨S1024, .f32⟩
  | .local _ .vmem, ⟨4, _⟩ => ⟨S1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1x2048, .f32⟩
  | .local _ .vmem, ⟨14, _⟩ => ⟨S1024x2048, .f32⟩
  | .local _ .vmem, ⟨15, _⟩ => ⟨S1024, .f32⟩
  | .local _ .vmem, ⟨16, _⟩ => ⟨S1x1024, .f32⟩
  | .local _ .vmem, ⟨17, _⟩ => ⟨S1x1024, .f32⟩
  | .local _ .vmem, ⟨18, _⟩ => ⟨S3072x1024, .f32⟩
  | .local _ .vmem, ⟨19, _⟩ => ⟨S3072, .f32⟩
  | .local _ .vmem, ⟨20, _⟩ => ⟨S1x3072, .f32⟩
  | .local _ .vmem, ⟨21, _⟩ => ⟨S1x1024, .f32⟩
  | .local _ .vmem, ⟨22, _⟩ => ⟨S3072x1024, .f32⟩
  | .local _ .vmem, ⟨23, _⟩ => ⟨S3072, .f32⟩
  | .local _ .vmem, ⟨24, _⟩ => ⟨S1x3072, .f32⟩
  | .local _ .vmem, ⟨25, _⟩ => ⟨S1x1024, .f32⟩
  | .local _ .vmem, ⟨26, _⟩ => ⟨S4096x1024, .f32⟩
  | .local _ .vmem, ⟨27, _⟩ => ⟨S4096x1024, .f32⟩
  | .local _ .vmem, ⟨28, _⟩ => ⟨S4096, .f32⟩
  | .local _ .vmem, ⟨29, _⟩ => ⟨S4096, .f32⟩
  | .local _ .vmem, ⟨30, _⟩ => ⟨S1x4096, .f32⟩
  | .local _ .vmem, ⟨31, _⟩ => ⟨S1x4096, .f32⟩
  | .local _ .vmem, ⟨32, _⟩ => ⟨S1x1024, .f32⟩
  | .local _ .vmem, ⟨33, _⟩ => ⟨S1105x1024, .f32⟩
  | .local _ .vmem, ⟨34, _⟩ => ⟨S1105, .f32⟩
  | .local _ .vmem, ⟨35, _⟩ => ⟨S1x1105, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg3_0 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem1_0 : DmaSem sig := 21
abbrev cc4_sem2_0 : DmaSem sig := 22
abbrev cc4_sem3_0 : DmaSem sig := 23
abbrev cc5_sem0_0 : DmaSem sig := 24
abbrev cc5_sem1_0 : DmaSem sig := 25
abbrev cc5_sem1_1 : DmaSem sig := 26
abbrev cc5_sem2_0 : DmaSem sig := 27
abbrev cc5_sem2_1 : DmaSem sig := 28
abbrev cc5_sem3_0 : DmaSem sig := 29
abbrev cc5_sem3_1 : DmaSem sig := 30
abbrev cc6_sem0_0 : DmaSem sig := 31
abbrev cc6_sem1_0 : DmaSem sig := 32
abbrev cc6_sem2_0 : DmaSem sig := 33
abbrev cc6_sem3_0 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S3072x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S3072 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x3072 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S3072x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1x3072 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![12], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  ![arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S4096x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S1x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1105x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S1105 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S1x1105 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  shapeCasts_S1_S_ : S1.ShapeCasts S_
  sliceFits_S50257x1024_S1x1024 : S50257x1024.Slices (fun _ => 0) S1x1024
  h_S_ : 0 < S_.numel
  shapeCasts_S1x1x1024_S1x1024 : S1x1x1024.ShapeCasts S1x1024
  concatenates_S1x1024_S1x1024_S1x2048_d1 : Shape.Concatenates [S1x1024, S1x1024] S1x2048 1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  reducesTo_S1x4096_S1_d1 : S1x4096.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  inb_S3072x1024_S3072x1024_0_0 : ∀ a, (![0, 0] : Fin 2 → Nat) a + S3072x1024.size a ≤ S3072x1024.size a
  h_S3072x1024 : 0 < S3072x1024.numel
  inb_S3072_S3072_0 : ∀ a, (![0] : Fin 1 → Nat) a + S3072.size a ≤ S3072.size a
  h_S3072 : 0 < S3072.numel
  shapeCasts_S3072_S1x3072 : S3072.ShapeCasts S1x3072
  inb_S1x3072_S1x3072_0_0 : ∀ a, (![0, 0] : Fin 2 → Nat) a + S1x3072.size a ≤ S1x3072.size a
  h_S1x3072 : 0 < S1x3072.numel
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  slices_S50257x1024_S49152x1024_0_0 : S50257x1024.Slices ![0, 0] S49152x1024
  slices_S50257_S49152_0 : S50257.Slices ![0] S49152
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  slices_S50257x1024_S1105x1024_49152_0 : S50257x1024.Slices ![49152, 0] S1105x1024
  slices_S50257_S1105_49152 : S50257.Slices ![49152] S1105
  inb_S1105x1024_S1105x1024_0_0 : ∀ a, (![0, 0] : Fin 2 → Nat) a + S1105x1024.size a ≤ S1105x1024.size a
  h_S1105x1024 : 0 < S1105x1024.numel
  shapeCasts_S1105x1024_S1105x1024 : S1105x1024.ShapeCasts S1105x1024
  inb_S1105_S1105_0 : ∀ a, (![0] : Fin 1 → Nat) a + S1105.size a ≤ S1105.size a
  h_S1105 : 0 < S1105.numel
  shapeCasts_S1105_S1105 : S1105.ShapeCasts S1105
  shapeCasts_S1105_S1x1105 : S1105.ShapeCasts S1x1105
  inb_S1x1105_S1x1105_0_0 : ∀ a, (![0, 0] : Fin 2 → Nat) a + S1x1105.size a ≤ S1x1105.size a
  h_S1x1105 : 0 < S1x1105.numel
  concatenates_S1x49152_S1x1105_S1x50257_d1 : Shape.Concatenates [S1x49152, S1x1105] S1x50257 1
  dot_S1x2048_S1024x2048_S1x1024_1_1_0_0_n_n_wf : DotDims.WF S1x2048 S1024x2048 S1x1024 [1] [1] [0] [0] [] []
  dot_S1x1024_S1024x1024_S1x1024_1_0_0_1_n_n_wf : DotDims.WF S1x1024 S1024x1024 S1x1024 [1] [0] [0] [1] [] []
  dot_S1x1024_S3072x1024_S1x3072_1_1_0_0_n_n_wf : DotDims.WF S1x1024 S3072x1024 S1x3072 [1] [1] [0] [0] [] []
  dot_S1x1024_S4096x1024_S1x4096_1_1_0_0_n_n_wf : DotDims.WF S1x1024 S4096x1024 S1x4096 [1] [1] [0] [0] [] []
  dot_S1x1024_S1105x1024_S1x1105_1_1_0_0_n_n_wf : DotDims.WF S1x1024 S1105x1024 S1x1105 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .f32 = 32 ∨ (Rect.block (s := S4096x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x4096.size a
  hwx1_0 : ∀ i : grid1.Coords, EltTy.bits .f32 = 32 ∨ (Rect.block (s := S1x4096) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .f32 = 32 ∨ (Rect.block (s := S1024x2048) S1024x2048.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S3072x1024.size a ≤ S3072x1024.size a
  hwx3_1 : ∀ i : grid3.Coords, EltTy.bits .f32 = 32 ∨ (Rect.block (s := S3072x1024) S3072x1024.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S3072.size a ≤ S3072.size a
  hwx3_2 : ∀ i : grid3.Coords, EltTy.bits .f32 = 32 ∨ (Rect.block (s := S3072) S3072.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x3072.size a ≤ S1x3072.size a
  hwx3_3 : ∀ i : grid3.Coords, EltTy.bits .f32 = 32 ∨ (Rect.block (s := S1x3072) S1x3072.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x1024.size a ≤ S1x1024.size a
  hwx4_0 : ∀ i : grid4.Coords, EltTy.bits .f32 = 32 ∨ (Rect.block (s := S1x1024) S1x1024.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S3072x1024.size a ≤ S3072x1024.size a
  hwx4_1 : ∀ i : grid4.Coords, EltTy.bits .f32 = 32 ∨ (Rect.block (s := S3072x1024) S3072x1024.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S3072.size a ≤ S3072.size a
  hwx4_2 : ∀ i : grid4.Coords, EltTy.bits .f32 = 32 ∨ (Rect.block (s := S3072) S3072.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1x3072.size a ≤ S1x3072.size a
  hwx4_3 : ∀ i : grid4.Coords, EltTy.bits .f32 = 32 ∨ (Rect.block (s := S1x3072) S1x3072.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x1024.size a ≤ S1x1024.size a
  hwx5_0 : ∀ i : grid5.Coords, EltTy.bits .f32 = 32 ∨ (Rect.block (s := S1x1024) S1x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x1024.size a ≤ S49152x1024.size a
  hwx5_1 : ∀ i : grid5.Coords, EltTy.bits .f32 = 32 ∨ (Rect.block (s := S49152x1024) S4096x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096.size a ≤ S49152.size a
  hwx5_2 : ∀ i : grid5.Coords, EltTy.bits .f32 = 32 ∨ (Rect.block (s := S49152) S4096.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x4096.size a ≤ S1x49152.size a
  hwx5_3 : ∀ i : grid5.Coords, EltTy.bits .f32 = 32 ∨ (Rect.block (s := S1x49152) S1x4096.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1x1024.size a ≤ S1x1024.size a
  hwx6_0 : ∀ i : grid6.Coords, EltTy.bits .f32 = 32 ∨ (Rect.block (s := S1x1024) S1x1024.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S1105x1024.size a ≤ S1105x1024.size a
  hwx6_1 : ∀ i : grid6.Coords, EltTy.bits .f32 = 32 ∨ (Rect.block (s := S1105x1024) S1105x1024.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S1105.size a ≤ S1105.size a
  hwx6_2 : ∀ i : grid6.Coords, EltTy.bits .f32 = 32 ∨ (Rect.block (s := S1105) S1105.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S1x1105.size a ≤ S1x1105.size a
  hwx6_3 : ∀ i : grid6.Coords, EltTy.bits .f32 = 32 ∨ (Rect.block (s := S1x1105) S1x1105.size (cc6_transform_3 i) (hinb6_3 i)).WholeWords (EltTy.packing .f32)

variable [Facts₀]

def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf
def dot_S1x1024_S1105x1024_S1x1105_1_1_0_0_n_n : DotDims S1x1024 S1105x1024 S1x1105 where
  lhsContracting := [1]
  rhsContracting := [1]
  lhsNonContracting := [0]
  rhsNonContracting := [0]
  lhsBatch := []
  rhsBatch := []
  wf := dot_S1x1024_S1105x1024_S1x1105_1_1_0_0_n_n_wf

abbrev win0_0 : Pipeline.Window sig grid0 :=
  Pipeline.Window.ofSpec (Memref.whole main_v6) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v10) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x2048.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S3072x1024.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S3072.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x3072.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v5) S1x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S3072x1024.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S3072.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x3072.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v41) S1x1024.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v42) S4096x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S4096.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x4096.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v41) S1x1024.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v45) S1105x1024.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1105.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v47) S1x1105.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S4096x1024 : Shape := ⟨2, ![4096, 1024]⟩
abbrev S50257x1024 : Shape := ⟨2, ![50257, 1024]⟩
abbrev S4096x2048 : Shape := ⟨2, ![4096, 2048]⟩
abbrev S4096 : Shape := ⟨1, ![4096]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x4096 : Shape := ⟨2, ![2048, 4096]⟩
abbrev S1x4096 : Shape := ⟨2, ![1, 4096]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 101
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S4096x1024, .f32⟩
  | .hbm, ⟨3, _⟩ => ⟨S50257x1024, .f32⟩
  | .hbm, ⟨4, _⟩ => ⟨S4096x2048, .f32⟩
  | .hbm, ⟨5, _⟩ => ⟨S4096, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x1, .f32⟩
  | .hbm, ⟨44, _⟩ => ⟨S1x4096, .f32⟩
  | .hbm, ⟨45, _⟩ => ⟨S1x4096, .f32⟩
  | .hbm, ⟨46, _⟩ => ⟨S1x1024, .f32⟩
  | .hbm, ⟨47, _⟩ => ⟨S1x1024, .f32⟩
  | .hbm, ⟨48, _⟩ => ⟨S1x2048, .f32⟩
  | .hbm, ⟨49, _⟩ => ⟨S2048x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1024x50257, .f32⟩
  | .hbm, ⟨98, _⟩ => ⟨S1x50257, .f32⟩
  | .hbm, ⟨99, _⟩ => ⟨S1x50257, .f32⟩
  | .hbm, ⟨100, _⟩ => ⟨S1x50257, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_call0_cst_0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_cst_1 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_cst : Ref sig .tc := ⟨.hbm, 53, rfl⟩
abbrev main_call1_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_2 : Ref sig .tc := ⟨.hbm, 82, rfl⟩
abbrev main_v48 : Ref sig .tc := ⟨.hbm, 83, rfl⟩
abbrev main_v49 : Ref sig .tc := ⟨.hbm, 84, rfl⟩
abbrev main_cst_3 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_4 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S4096x2048_S2048x4096_1_0 : S4096x2048.Transposes [1, 0] S2048x4096
  bcast_S4096_S1x4096_1 : S4096.BroadcastsInDim S1x4096 (![1] : Fin 1 → Fin S1x4096.rank)
  reducesTo_S1x4096_S1_d1 : S1x4096.ReducesTo [1] S1
  h_S_ : 0 < S_.numel
  bcast_S1x1_S1x4096_0_1 : S1x1.BroadcastsInDim S1x4096 (![0, 1] : Fin 2 → Fin S1x4096.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  gather_S50257x1024_S1x1_S1x1024_1_0_n_n_0_1_11024_wf : GatherDims.WF S50257x1024 S1x1 S1x1024 [1] [0] [] [0] [] 1 ![1, 1024]
  dot_S1x2048_S2048x4096_S1x4096_1_0_0_1_n_n_wf : DotDims.WF S1x2048 S2048x4096 S1x4096 [1] [0] [0] [1] [] []
  dot_S1x4096_S4096x1024_S1x1024_1_0_0_1_n_n_wf : DotDims.WF S1x4096 S4096x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x4096_S1x4096_1_0_0_1_n_n : DotDims S1x2048 S2048x4096 S1x4096 where
  lhsContracting := [1]
  rhsContracting := [0]
  lhsNonContracting := [0]
  rhsNonContracting := [1]
  lhsBatch := []
  rhsBatch := []
  wf := dot_S1x2048_S2048x4096_S1x4096_1_0_0_1_n_n_wf
def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x2048 := Rect.unit (s := S1x2048) ![0, 0] S1x2048.size inb_S1x2048_S1x2048_0_0
abbrev r0_1 : Rect S1024x2048 := Rect.unit (s := S1024x2048) ![0, 0] S1024x2048.size inb_S1024x2048_S1024x2048_0_0
abbrev r0_2 : Rect S1024 := Rect.unit (s := S1024) ![0] S1024.size inb_S1024_S1024_0
abbrev r0_3 : Rect S1x1024 := Rect.unit (s := S1x1024) ![0, 0] S1x1024.size inb_S1x1024_S1x1024_0_0

def out0_3 (x0 : Vec F S1x2048 .f32) (x1 : Vec F S1024x2048 .f32) (x2 : Vec F S1024 .f32) : Vec F S1x1024 .f32 :=
  View.canon [⟨r0_3, k0_pay1 (View.ld x0 r0_0) (View.ld x1 r0_1) (View.ld x2 r0_2)⟩]

theorem cover0_3 (p0 : Vec F S1x1024 .f32) (y : S1x1024.Idx) :
    ∃ pc ∈ ([⟨r0_3, p0⟩] : List (View.Piece (Elt F) S1x1024 .f32)), y ∈ pc.1.set :=
  View.cover_of_tiled [⟨r0_3, p0⟩] S1x1024.size (by rfl) y

set_option maxHeartbeats 1000000 in

theorem sound_kernel0 (c : Dev nD) (E : Set ℕ) (i : grid0.Coords)
    (arg1 : Memref sig .tc .vmem S1x2048 .f32) (harg1 : arg1.IsWhole) (arg2 : Memref sig .tc .vmem S1024x2048 .f32) (harg2 : arg2.IsWhole)
    (arg3 : Memref sig .tc .vmem S1024 .f32) (harg3 : arg3.IsWhole) (arg4 : Memref sig .tc .vmem S1x1024 .f32) (harg4 : arg4.IsWhole)
    (x0 : Vec F S1x2048 .f32) (x1 : Vec F S1024x2048 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.Reg1.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

theorem liveAt1_2 : ∀ t : Fin cfg1.N, cond1_1 (grid1.coords t) → cfg1.idle 2 (grid1.coords t) = false := by decide +kernel

abbrev r1_x : Rect S1x1024 := Rect.unit (s := S1x1024) ![0, 0] S1x1024.size inb_S1x1024_S1x1024_0_0
abbrev r1_W : Rect S1024x1024 := Rect.unit (s := S1024x1024) ![0, 0] S1024x1024.size inb_S1024x1024_S1024x1024_0_0

theorem mem_r1_x (y : S1x1024.Idx) : y ∈ r1_x.set :=
  Rect.mem_set_unit.mpr fun a => ⟨by fin_cases a <;> exact Nat.zero_le _, by have := (y a).isLt; fin_cases a <;> simpa using this⟩

def scr1_first (x0 : Vec F S1x1024 .f32) (x1 : Vec F S1024x1024 .f32) : Vec F S1x1024 .f32 :=
  View.canon [⟨r1_x, k1_pay2 (k1_pay1 (F := F)) (View.ld x0 r1_x) (View.ld x1 r1_W)⟩]

def scr1_next (acc x0 : Vec F S1x1024 .f32) (x1 : Vec F S1024x1024 .f32) : Vec F S1x1024 .f32 :=
  View.canon [⟨r1_x, k1_pay2 (View.ld acc r1_x) (View.ld x0 r1_x) (View.ld x1 r1_W)⟩]

set_option maxHeartbeats 1000000 in

theorem sound_kernel1_A (c : Dev nD) (E : Set ℕ) (i : grid1.Coords) (arg1 : Memref sig .tc .vmem S1x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : cond1_0 i) (hc1 : ¬cond1_1 i)
    (x0 : Vec F S1x1024 .f32) (x1 : Vec F S1024x1024 .f32) (xi2 : Vec F S1x1024 .f32) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (scr1_first x0 x1)) -∗ K ⟨⟩))
      ⊢ wp frame (wpE (defs₀ (F := F)) Variants.none c none) E (cc1__bmm_kernel i arg1 harg1 arg2 harg2 arg3 harg3 arg4 harg4) K := by
  simp only [cc1__bmm_kernel_eq_skeleton]; unfold cc1__bmm_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [View.readCov_cons_toLoadRect]
  exact (View.read_writes_of_cover_last _ _ arg4.view arg4.view.junk _ _ [] mem_r1_x).trans (View.read_writes_junk_eq_canon _ _)

set_option maxHeartbeats 1000000 in

theorem sound_kernel1_B (c : Dev nD) (E : Set ℕ) (i : grid1.Coords) (arg1 : Memref sig .tc .vmem S1x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond1_0 i) (hc1 : ¬cond1_1 i)
    (x0 : Vec F S1x1024 .f32) (x1 : Vec F S1024x1024 .f32) (xi2 : Vec F S1x1024 .f32) (acc : Vec F S1x1024 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare acc
        ∗ (iprop(owns (c : Thread nD τ) arg1 fullShare x0 ∗ owns (c : Thread nD τ) arg2 fullShare x1 ∗ owns (c : Thread nD τ) arg3 fullShare xi2 ∗ owns (c : Thread nD τ) arg4 fullShare (scr1_next acc x0 x1)) -∗ K ⟨⟩))
      ⊢ wp frame (wpE (defs₀ (F := F)) Variants.none c none) E (cc1__bmm_kernel i arg1 harg1 arg2 harg2 arg3 harg3 arg4 harg4) K := by
  simp only [cc1__bmm_kernel_eq_skeleton]; unfold cc1__bmm_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  exact (View.read_writes_of_cover_last _ _ arg4.view arg4.view.junk _ _ [] mem_r1_x).trans (View.read_writes_junk_eq_canon _ _)

set_option maxHeartbeats 1000000 in

theorem sound_kernel1_C (c : Dev nD) (E : Set ℕ) (i : grid1.Coords) (arg1 : Memref sig .tc .vmem S1x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond1_0 i) (hc1 : cond1_1 i)
    (x0 : Vec F S1x1024 .f32) (x1 : Vec F S1024x1024 .f32) (acc : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare acc
        ∗ (iprop(owns (c : Thread nD τ) arg1 fullShare x0 ∗ owns (c : Thread nD τ) arg2 fullShare x1 ∗ owns (c : Thread nD τ) arg3 fullShare (scr1_next acc x0 x1) ∗ owns (c : Thread nD τ) arg4 fullShare (scr1_next acc x0 x1)) -∗ K ⟨⟩))
      ⊢ wp frame (wpE (defs₀ (F := F)) Variants.none c none) E (cc1__bmm_kernel i arg1 harg1 arg2 harg2 arg3 harg3 arg4 harg4) K := by
  simp only [cc1__bmm_kernel_eq_skeleton]; unfold cc1__bmm_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.readCov_cons_toLoadRect]
    exact (View.read_writes_of_cover_last _ _ arg3.view arg3.view.junk _ _ [] mem_r1_x).trans (View.read_writes_junk_eq_canon _ _)
  iexists _; isplitr
  swap; · iexact HS0
  ipureintro
  sl_unfold_run_names
  exact (View.read_writes_of_cover_last _ _ arg4.view arg4.view.junk _ _ [] mem_r1_x).trans (View.read_writes_junk_eq_canon _ _)

def scratchAt1 (c : Dev nD) : (n : ℕ) → n < cfg1.N → Vec F S1x1024 .f32
  | 0, hn => scr1_first (iblk1 V c 0 ⟨0, hn⟩) (iblk1 V c 1 ⟨0, hn⟩)
  | n + 1, hn => scr1_next (scratchAt1 c n (Nat.lt_of_succ_lt hn)) (iblk1 V c 0 ⟨n + 1, hn⟩) (iblk1 V c 1 ⟨n + 1, hn⟩)

theorem scratchAt1_first (c : Dev nD) (t : Fin cfg1.N) (h : t.val = 0) :
    scratchAt1 V c t.val t.isLt = scr1_first (iblk1 V c 0 t) (iblk1 V c 1 t) := by
  obtain ⟨n, hn⟩ := t
  cases n with
  | zero => rfl
  | succ n => exact absurd h (Nat.succ_ne_zero n)

theorem scratchAt1_pos (c : Dev nD) (t : Fin cfg1.N) (h : t.val ≠ 0) :
    scratchAt1 V c t.val t.isLt
      = scr1_next (scratchAt1 V c (t.val - 1) (Nat.lt_of_le_of_lt (Nat.sub_le _ _) t.isLt)) (iblk1 V c 0 t) (iblk1 V c 1 t) := by
  obtain ⟨n, hn⟩ := t
  cases n with
  | zero => exact absurd rfl h
  | succ n => rfl

theorem scratchAt1_last (c : Dev nD) :
    scratchAt1 V c t1_3.val t1_3.isLt
      = scr1_next (scr1_next (scr1_next (scr1_first (iblk1 V c 0 t1_0) (iblk1 V c 1 t1_0)) (iblk1 V c 0 t1_1) (iblk1 V c 1 t1_1))
          (iblk1 V c 0 t1_2) (iblk1 V c 1 t1_2)) (iblk1 V c 0 t1_3) (iblk1 V c 1 t1_3) := rfl

abbrev scM1 : Memref sig .tc .vmem S1x1024 .f32 := Memref.whole cc1_scratch0

def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop(owns (c : Thread nD τ) scM1 fullShare (scratchAt1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) spec1 c) := by
  subst hz; rfl

theorem PhiS1_succ (c : Dev nD) (n : ℕ) (hn : n < cfg1.N) :
    PhiS1 V c (n + 1) hn = iprop(owns (c : Thread nD τ) scM1 fullShare (scratchAt1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (scratchAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

theorem entry1_eq (c : Dev nD) :
    (iprop((∃ r, prngReg c r) ∗ Pipeline.scopedRest (Ix := Unit) (Name := ℕ) (U := UR sig nD τ) (Lvl := ℕ) spec1 c) : sProp 𝕄)
      = iprop((∃ r, prngReg c r) ∗ (iprop(∃ d, owns (c : Thread nD τ) scM1 fullShare d)
          ∗ Pipeline.scopedRestBut (Ix := Unit) (Name := ℕ) (U := UR sig nD τ) (Lvl := ℕ) (Val := Elt F) spec1 c [cc1_scratch0])) := by
  rw [scopedRest1_split]; simp only [scM1, owns_whole]; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scratchAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scratchAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [PhiS1_castSucc V c t]
  have hN : t.val < 4 := lt_of_lt_of_eq t.isLt (show cfg1.N = 4 from N_1)
  by_cases h0 : t.val % 4 = 0
  ·
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [scratchAt1_first V c t hz, PhiS1_zero V c _ _ hz, entry1_eq]
    iintro ⟨⟨Hg, ⟨%ds, HS⟩, HR⟩, Ho, ⟨%d0, H0⟩, ⟨%d1, H1⟩, ⟨%d2, H2⟩⟩
    iapply (sound_kernel1_A c Set.univ (grid1.coords t) _ _ _ _ _ _ _ _ hc0 hc1 (iblk1 V c 0 t) (iblk1 V c 1 t) _ _)
    isplitl [H0]; · iexact H0
    isplitl [H1]; · iexact H1
    isplitl [H2]; · iexact H2
    isplitl [HS]; · iexists _; iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hz : t.val ≠ 0 := by omega
    have hc0 : ¬cond1_0 (grid1.coords t) := fun h => h0 ((hcond1_0 t).mp h)
    by_cases h1 : t.val % 4 = 3
    ·
      have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [scratchAt1_pos V c t hz, PhiS1_pos V c _ _ hz]
      iintro ⟨⟨HS, HR, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    ·
      have hc1 : ¬cond1_1 (grid1.coords t) := fun h => h1 ((hcond1_1 t).mp h)
      rw [Dat.leavesExact_idle (dat1 V c) 2 t (idleAt1_2 t hc1) (noFlush1_2 t hc1)]
      rw [scratchAt1_pos V c t hz, PhiS1_pos V c _ _ hz]
      iintro ⟨⟨HS, HR, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.scopedRest (Ix := Unit) (Name := ℕ) (U := UR sig nD τ) (Lvl := ℕ) spec1 c) ⊢ ((dat1 V c).Φ 0 : sProp 𝕄) := by
  rw [show (dat1 V c).Φ 0 = PhiS1 V c 0 (Nat.zero_le _) from rfl, PhiS1_zero V c 0 _ rfl]

theorem hout1 (c : Dev nD) : ((dat1 V c).Φ (Fin.last cfg1.N) : sProp 𝕄) ⊢ iprop((∃ r, prngReg c r) ∗ Pipeline.scopedRest (Ix := Unit) (Name := ℕ) (U := UR sig nD τ) (Lvl := ℕ) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 4 := N_1; omega), entry1_eq]
  iintro ⟨HS, HR, Hg⟩
  isplitl [Hg]; · iexact Hg
  isplitl [HS]; · iexists _; iexact HS
  iexact HR

theorem flushed1_2 (c : Dev nD) (t : Fin cfg1.N) :
    (dat1 V c).flushed 2 t = (cfg1.win 2).cut (grid1.coords t) (scratchAt1 V c t.val t.isLt) := by
  show (cfg1.win 2).cut (grid1.coords t) ((dat1 V c).after 2 t) = _
  rw [after1_2]

theorem arrAt1_2 (c : Dev nD) :
    (dat1 V c).arrAt 2 cfg1.N
      = ((cfg1.win 2).blk t1_3).view.write (Elt F) (V c (Pipeline.arrRef spec1 2))
          ((cfg1.win 2).cut (grid1.coords t1_3) (scratchAt1 V c t1_3.val t1_3.isLt)) Finset.univ := by
  have nf : ∀ t : Fin cfg1.N, t.val % 4 ≠ 3 → ¬((cfg1.win 2).flush t = true) := fun t h hf => h ((flush1_2 t).mp hf)
  have e0 : (dat1 V c).arrAt 2 (t1_0.val + 1) = (dat1 V c).arrAt 2 t1_0.val := by
    rw [(dat1 V c).arrAt_succ 2 t1_0, if_neg (nf t1_0 (by decide))]
  have e1 : (dat1 V c).arrAt 2 (t1_1.val + 1) = (dat1 V c).arrAt 2 t1_1.val := by
    rw [(dat1 V c).arrAt_succ 2 t1_1, if_neg (nf t1_1 (by decide))]
  have e2 : (dat1 V c).arrAt 2 (t1_2.val + 1) = (dat1 V c).arrAt 2 t1_2.val := by
    rw [(dat1 V c).arrAt_succ 2 t1_2, if_neg (nf t1_2 (by decide))]
  have e3 : (dat1 V c).arrAt 2 t1_3.val = V c (Pipeline.arrRef spec1 2) :=
    (e2.trans (e1.trans e0)).trans (A_eq1 V c 2)
  have e4 : (dat1 V c).arrAt 2 cfg1.N = (dat1 V c).arrAt 2 (t1_3.val + 1) := congrArg _ (show cfg1.N = t1_3.val + 1 from N_1)
  rw [e4, (dat1 V c).arrAt_succ 2 t1_3, if_pos ((flush1_2 t1_3).mpr (by decide)), flushed1_2, e3]

end Region1

end Cert.Kernel.Hand

end
-- ==== Proof.K.Reg2.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x2048 := Rect.unit (s := S1x2048) ![0, 0] S1x2048.size inb_S1x2048_S1x2048_0_0
abbrev r2_1 : Rect S1024x2048 := Rect.unit (s := S1024x2048) ![0, 0] S1024x2048.size inb_S1024x2048_S1024x2048_0_0
abbrev r2_2 : Rect S1024 := Rect.unit (s := S1024) ![0] S1024.size inb_S1024_S1024_0
abbrev r2_3 : Rect S1x1024 := Rect.unit (s := S1x1024) ![0, 0] S1x1024.size inb_S1x1024_S1x1024_0_0

def out2_3 (x0 : Vec F S1x2048 .f32) (x1 : Vec F S1024x2048 .f32) (x2 : Vec F S1024 .f32) : Vec F S1x1024 .f32 :=
  View.canon [⟨r2_3, k2_pay1 (View.ld x0 r2_0) (View.ld x1 r2_1) (View.ld x2 r2_2)⟩]

theorem cover2_3 (p0 : Vec F S1x1024 .f32) (y : S1x1024.Idx) :
    ∃ pc ∈ ([⟨r2_3, p0⟩] : List (View.Piece (Elt F) S1x1024 .f32)), y ∈ pc.1.set :=
  View.cover_of_tiled [⟨r2_3, p0⟩] S1x1024.size (by rfl) y

set_option maxHeartbeats 1000000 in

theorem sound_kernel2 (c : Dev nD) (E : Set ℕ) (i : grid2.Coords)
    (arg1 : Memref sig .tc .vmem S1x2048 .f32) (harg1 : arg1.IsWhole) (arg2 : Memref sig .tc .vmem S1024x2048 .f32) (harg2 : arg2.IsWhole)
    (arg3 : Memref sig .tc .vmem S1024 .f32) (harg3 : arg3.IsWhole) (arg4 : Memref sig .tc .vmem S1x1024 .f32) (harg4 : arg4.IsWhole)
    (x0 : Vec F S1x2048 .f32) (x1 : Vec F S1024x2048 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.K.Reg3.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x1024 := Rect.unit (s := S1x1024) ![0, 0] S1x1024.size inb_S1x1024_S1x1024_0_0
abbrev r3_1 : Rect S3072x1024 := Rect.unit (s := S3072x1024) ![0, 0] S3072x1024.size inb_S3072x1024_S3072x1024_0_0
abbrev r3_2 : Rect S3072 := Rect.unit (s := S3072) ![0] S3072.size inb_S3072_S3072_0
abbrev r3_3 : Rect S1x3072 := Rect.unit (s := S1x3072) ![0, 0] S1x3072.size inb_S1x3072_S1x3072_0_0

def out3_3 (x0 : Vec F S1x1024 .f32) (x1 : Vec F S3072x1024 .f32) (x2 : Vec F S3072 .f32) : Vec F S1x3072 .f32 :=
  View.canon [⟨r3_3, k3_pay1 (View.ld x0 r3_0) (View.ld x1 r3_1) (View.ld x2 r3_2)⟩]

theorem cover3_3 (p0 : Vec F S1x3072 .f32) (y : S1x3072.Idx) :
    ∃ pc ∈ ([⟨r3_3, p0⟩] : List (View.Piece (Elt F) S1x3072 .f32)), y ∈ pc.1.set :=
  View.cover_of_tiled [⟨r3_3, p0⟩] S1x3072.size (by rfl) y

set_option maxHeartbeats 1000000 in

theorem sound_kernel3 (c : Dev nD) (E : Set ℕ) (i : grid3.Coords)
    (arg1 : Memref sig .tc .vmem S1x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S1x3072 .f32) (harg4 : arg4.IsWhole)
    (x0 : Vec F S1x1024 .f32) (x1 : Vec F S3072x1024 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.K.Reg4.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1x1024 := Rect.unit (s := S1x1024) ![0, 0] S1x1024.size inb_S1x1024_S1x1024_0_0
abbrev r4_1 : Rect S3072x1024 := Rect.unit (s := S3072x1024) ![0, 0] S3072x1024.size inb_S3072x1024_S3072x1024_0_0
abbrev r4_2 : Rect S3072 := Rect.unit (s := S3072) ![0] S3072.size inb_S3072_S3072_0
abbrev r4_3 : Rect S1x3072 := Rect.unit (s := S1x3072) ![0, 0] S1x3072.size inb_S1x3072_S1x3072_0_0

def out4_3 (x0 : Vec F S1x1024 .f32) (x1 : Vec F S3072x1024 .f32) (x2 : Vec F S3072 .f32) : Vec F S1x3072 .f32 :=
  View.canon [⟨r4_3, k4_pay1 (View.ld x0 r4_0) (View.ld x1 r4_1) (View.ld x2 r4_2)⟩]

theorem cover4_3 (p0 : Vec F S1x3072 .f32) (y : S1x3072.Idx) :
    ∃ pc ∈ ([⟨r4_3, p0⟩] : List (View.Piece (Elt F) S1x3072 .f32)), y ∈ pc.1.set :=
  View.cover_of_tiled [⟨r4_3, p0⟩] S1x3072.size (by rfl) y

set_option maxHeartbeats 1000000 in

theorem sound_kernel4 (c : Dev nD) (E : Set ℕ) (i : grid4.Coords)
    (arg1 : Memref sig .tc .vmem S1x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S1x3072 .f32) (harg4 : arg4.IsWhole)
    (x0 : Vec F S1x1024 .f32) (x1 : Vec F S3072x1024 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.K.Reg5.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1x1024 := Rect.unit (s := S1x1024) ![0, 0] S1x1024.size inb_S1x1024_S1x1024_0_0
abbrev r5_1 : Rect S4096x1024 := Rect.unit (s := S4096x1024) ![0, 0] S4096x1024.size inb_S4096x1024_S4096x1024_0_0
abbrev r5_2 : Rect S4096 := Rect.unit (s := S4096) ![0] S4096.size inb_S4096_S4096_0
abbrev r5_3 : Rect S1x4096 := Rect.unit (s := S1x4096) ![0, 0] S1x4096.size inb_S1x4096_S1x4096_0_0

def out5_3 (x0 : Vec F S1x1024 .f32) (x1 : Vec F S4096x1024 .f32) (x2 : Vec F S4096 .f32) : Vec F S1x4096 .f32 :=
  View.canon [⟨r5_3, k5_pay1 (View.ld x0 r5_0) (View.ld x1 r5_1) (View.ld x2 r5_2)⟩]

theorem cover5_3 (p0 : Vec F S1x4096 .f32) (y : S1x4096.Idx) :
    ∃ pc ∈ ([⟨r5_3, p0⟩] : List (View.Piece (Elt F) S1x4096 .f32)), y ∈ pc.1.set :=
  View.cover_of_tiled [⟨r5_3, p0⟩] S1x4096.size (by rfl) y

set_option maxHeartbeats 1000000 in

theorem sound_kernel5 (c : Dev nD) (E : Set ℕ) (i : grid5.Coords)
    (arg1 : Memref sig .tc .vmem S1x1024 .f32) (harg1 : arg1.IsWhole) (arg2 : Memref sig .tc .vmem S4096x1024 .f32) (harg2 : arg2.IsWhole)
    (arg3 : Memref sig .tc .vmem S4096 .f32) (harg3 : arg3.IsWhole) (arg4 : Memref sig .tc .vmem S1x4096 .f32) (harg4 : arg4.IsWhole)
    (x0 : Vec F S1x1024 .f32) (x1 : Vec F S4096x1024 .f32) (x2 : Vec F S4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Region

end Cert.Kernel.Hand

end
-- ==== Proof.K.Reg6.lean ====
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x1024 := Rect.unit (s := S1x1024) ![0, 0] S1x1024.size inb_S1x1024_S1x1024_0_0
abbrev r6_1 : Rect S1105x1024 := Rect.unit (s := S1105x1024) ![0, 0] S1105x1024.size inb_S1105x1024_S1105x1024_0_0
abbrev r6_2 : Rect S1105 := Rect.unit (s := S1105) ![0] S1105.size inb_S1105_S1105_0
abbrev r6_3 : Rect S1x1105 := Rect.unit (s := S1x1105) ![0, 0] S1x1105.size inb_S1x1105_S1x1105_0_0

def out6_3 (x0 : Vec F S1x1024 .f32) (x1 : Vec F S1105x1024 .f32) (x2 : Vec F S1105 .f32) : Vec F S1x1105 .f32 :=
  View.canon [⟨r6_3, k6_pay1 (View.ld x0 r6_0) (View.ld x1 r6_1) (View.ld x2 r6_2)⟩]

theorem cover6_3 (p0 : Vec F S1x1105 .f32) (y : S1x1105.Idx) :
    ∃ pc ∈ ([⟨r6_3, p0⟩] : List (View.Piece (Elt F) S1x1105 .f32)), y ∈ pc.1.set :=
  View.cover_of_tiled [⟨r6_3, p0⟩] S1x1105.size (by rfl) y

set_option maxHeartbeats 1000000 in

theorem sound_kernel6 (c : Dev nD) (E : Set ℕ) (i : grid6.Coords)
    (arg1 : Memref sig .tc .vmem S1x1024 .f32) (harg1 : arg1.IsWhole) (arg2 : Memref sig .tc .vmem S1105x1024 .f32) (harg2 : arg2.IsWhole)
    (arg3 : Memref sig .tc .vmem S1105 .f32) (harg3 : arg3.IsWhole) (arg4 : Memref sig .tc .vmem S1x1105 .f32) (harg4 : arg4.IsWhole)
    (x0 : Vec F S1x1024 .f32) (x1 : Vec F S1105x1024 .f32) (x2 : Vec F S1105 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Region

end Cert.Kernel.Hand

end
-- ==== Proof.K.Run.lean ====
import proofs.«163280_j13889924235715_1_alg».proof.Proof.K.Reg0
import proofs.«163280_j13889924235715_1_alg».proof.Proof.K.Reg1
import proofs.«163280_j13889924235715_1_alg».proof.Proof.K.Reg2
import proofs.«163280_j13889924235715_1_alg».proof.Proof.K.Reg3
import proofs.«163280_j13889924235715_1_alg».proof.Proof.K.Reg4
import proofs.«163280_j13889924235715_1_alg».proof.Proof.K.Reg5
import proofs.«163280_j13889924235715_1_alg».proof.Proof.K.Reg6
import proofs.«163280_j13889924235715_1_alg».proof.Proof.Gen.Kernel.Regions
import proofs.«163280_j13889924235715_1_alg».proof.Proof.Gen.Kernel.Launch
import proofs.«163280_j13889924235715_1_alg».proof.Proof.Gen.Kernel.Skeleton
import proofs.«163280_j13889924235715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Outs

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def U1 (c : Dev nD) : Valuation τ sig (Elt F) := StableHlo.after hostOps0 (V0 m c)

def U2 (c : Dev nD) : Valuation τ sig (Elt F) :=
  Function.update (U1 m c) main_v7 ((dat0 (atTc (U1 m)) c).arrAt 3 cfg0.N : Buf (Elt F) ((c : Thread nD τ).loc main_v7))

def U3 (c : Dev nD) : Valuation τ sig (Elt F) := StableHlo.after hostOps1 (U2 m c)

def U4 (c : Dev nD) : Valuation τ sig (Elt F) :=
  Function.update (U3 m c) main_v9 ((dat1 (atTc (U3 m)) c).arrAt 2 cfg1.N : Buf (Elt F) ((c : Thread nD τ).loc main_v9))

def U5 (c : Dev nD) : Valuation τ sig (Elt F) := StableHlo.after hostOps2 (U4 m c)

def U6 (c : Dev nD) : Valuation τ sig (Elt F) :=
  Function.update (U5 m c) main_v11 ((dat2 (atTc (U5 m)) c).arrAt 3 cfg2.N : Buf (Elt F) ((c : Thread nD τ).loc main_v11))

def U7 (c : Dev nD) : Valuation τ sig (Elt F) :=
  Function.update (U6 m c) main_v12 ((dat3 (atTc (U6 m)) c).arrAt 3 cfg3.N : Buf (Elt F) ((c : Thread nD τ).loc main_v12))

def U8 (c : Dev nD) : Valuation τ sig (Elt F) :=
  Function.update (U7 m c) main_v13 ((dat4 (atTc (U7 m)) c).arrAt 3 cfg4.N : Buf (Elt F) ((c : Thread nD τ).loc main_v13))

def U9 (c : Dev nD) : Valuation τ sig (Elt F) := StableHlo.after hostOps5 (U8 m c)

def U10 (c : Dev nD) : Valuation τ sig (Elt F) :=
  Function.update (U9 m c) main_v44 ((dat5 (atTc (U9 m)) c).arrAt 3 cfg5.N : Buf (Elt F) ((c : Thread nD τ).loc main_v44))

def U11 (c : Dev nD) : Valuation τ sig (Elt F) := StableHlo.after hostOps6 (U10 m c)

def U12 (c : Dev nD) : Valuation τ sig (Elt F) :=
  Function.update (U11 m c) main_v47 ((dat6 (atTc (U11 m)) c).arrAt 3 cfg6.N : Buf (Elt F) ((c : Thread nD τ).loc main_v47))

abbrev Vt1 : (c : Dev nD) → (b : Ref sig .tc) → Buf (Elt F) ((c : Thread nD τ).loc b) := atTc (U1 m)

abbrev Vt3 : (c : Dev nD) → (b : Ref sig .tc) → Buf (Elt F) ((c : Thread nD τ).loc b) := atTc (U3 m)

abbrev Vt5 : (c : Dev nD) → (b : Ref sig .tc) → Buf (Elt F) ((c : Thread nD τ).loc b) := atTc (U5 m)

abbrev Vt6 : (c : Dev nD) → (b : Ref sig .tc) → Buf (Elt F) ((c : Thread nD τ).loc b) := atTc (U6 m)

abbrev Vt7 : (c : Dev nD) → (b : Ref sig .tc) → Buf (Elt F) ((c : Thread nD τ).loc b) := atTc (U7 m)

abbrev Vt9 : (c : Dev nD) → (b : Ref sig .tc) → Buf (Elt F) ((c : Thread nD τ).loc b) := atTc (U9 m)

abbrev Vt11 : (c : Dev nD) → (b : Ref sig .tc) → Buf (Elt F) ((c : Thread nD τ).loc b) := atTc (U11 m)

def outs : Outs (F := F) := fun J r c =>
  match J with
  | 2 => U2 m c (Proc.devRef .tc r)
  | 4 => U4 m c (Proc.devRef .tc r)
  | 6 => U6 m c (Proc.devRef .tc r)
  | 7 => U7 m c (Proc.devRef .tc r)
  | 8 => U8 m c (Proc.devRef .tc r)
  | 10 => U10 m c (Proc.devRef .tc r)
  | 12 => U12 m c (Proc.devRef .tc r)
  | _ => m ((c : Thread nD τ).loc r)

theorem outs_2 (c : Dev nD) : outs m 2 main_v7 c = (dat0 (Vt1 m) c).arrAt 3 cfg0.N := by
  show U2 m c (Proc.devRef .tc main_v7) = _
  unfold U2; exact Function.update_self _ _ _

theorem outs_4 (c : Dev nD) : outs m 4 main_v9 c = (dat1 (Vt3 m) c).arrAt 2 cfg1.N := by
  show U4 m c (Proc.devRef .tc main_v9) = _
  unfold U4; exact Function.update_self _ _ _

theorem outs_6 (c : Dev nD) : outs m 6 main_v11 c = (dat2 (Vt5 m) c).arrAt 3 cfg2.N := by
  show U6 m c (Proc.devRef .tc main_v11) = _
  unfold U6; exact Function.update_self _ _ _

theorem outs_7 (c : Dev nD) : outs m 7 main_v12 c = (dat3 (Vt6 m) c).arrAt 3 cfg3.N := by
  show U7 m c (Proc.devRef .tc main_v12) = _
  unfold U7; exact Function.update_self _ _ _

theorem outs_8 (c : Dev nD) : outs m 8 main_v13 c = (dat4 (Vt7 m) c).arrAt 3 cfg4.N := by
  show U8 m c (Proc.devRef .tc main_v13) = _
  unfold U8; exact Function.update_self _ _ _

theorem outs_10 (c : Dev nD) : outs m 10 main_v44 c = (dat5 (Vt9 m) c).arrAt 3 cfg5.N := by
  show U10 m c (Proc.devRef .tc main_v44) = _
  unfold U10; exact Function.update_self _ _ _

theorem outs_12 (c : Dev nD) : outs m 12 main_v47 c = (dat6 (Vt11 m) c).arrAt 3 cfg6.N := by
  show U12 m c (Proc.devRef .tc main_v47) = _
  unfold U12; exact Function.update_self _ _ _

theorem V1_eq (c : Dev nD) : V1 m c = U1 m c := rfl
theorem V2_eq (c : Dev nD) : V2 m (outs m) c = U2 m c := by
  show Function.update (V1 m c) _ (outs m 2 main_v7 c) = _; rw [outs_2, V1_eq]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) _ (outs m 4 main_v9 c) = _; rw [outs_4, V3_eq]; rfl
theorem V5_eq (c : Dev nD) : V5 m (outs m) c = U5 m c := by
  show StableHlo.after hostOps2 (V4 m (outs m) c) = _; rw [V4_eq]; rfl
theorem V6_eq (c : Dev nD) : V6 m (outs m) c = U6 m c := by
  show Function.update (V5 m (outs m) c) _ (outs m 6 main_v11 c) = _; rw [outs_6, V5_eq]; rfl
theorem V7_eq (c : Dev nD) : V7 m (outs m) c = U7 m c := by
  show Function.update (V6 m (outs m) c) _ (outs m 7 main_v12 c) = _; rw [outs_7, V6_eq]; rfl
theorem V8_eq (c : Dev nD) : V8 m (outs m) c = U8 m c := by
  show Function.update (V7 m (outs m) c) _ (outs m 8 main_v13 c) = _; rw [outs_8, V7_eq]; rfl
theorem V9_eq (c : Dev nD) : V9 m (outs m) c = U9 m c := by
  show StableHlo.after hostOps5 (V8 m (outs m) c) = _; rw [V8_eq]; rfl
theorem V10_eq (c : Dev nD) : V10 m (outs m) c = U10 m c := by
  show Function.update (V9 m (outs m) c) _ (outs m 10 main_v44 c) = _; rw [outs_10, V9_eq]; rfl
theorem V11_eq (c : Dev nD) : V11 m (outs m) c = U11 m c := by
  show StableHlo.after hostOps6 (V10 m (outs m) c) = _; rw [V10_eq]; rfl
theorem Vt1_eq (c : Dev nD) (b : Ref sig .tc) : Vt1 m c b = V1 m c (Proc.devRef .tc b) := by rw [V1_eq]
theorem Vt3_eq (c : Dev nD) (b : Ref sig .tc) : Vt3 m c b = V3 m (outs m) c (Proc.devRef .tc b) := by rw [V3_eq]
theorem Vt5_eq (c : Dev nD) (b : Ref sig .tc) : Vt5 m c b = V5 m (outs m) c (Proc.devRef .tc b) := by rw [V5_eq]
theorem Vt6_eq (c : Dev nD) (b : Ref sig .tc) : Vt6 m c b = V6 m (outs m) c (Proc.devRef .tc b) := by rw [V6_eq]
theorem Vt7_eq (c : Dev nD) (b : Ref sig .tc) : Vt7 m c b = V7 m (outs m) c (Proc.devRef .tc b) := by rw [V7_eq]
theorem Vt9_eq (c : Dev nD) (b : Ref sig .tc) : Vt9 m c b = V9 m (outs m) c (Proc.devRef .tc b) := by rw [V9_eq]
theorem Vt11_eq (c : Dev nD) (b : Ref sig .tc) : Vt11 m c b = V11 m (outs m) c (Proc.devRef .tc b) := by rw [V11_eq]

def pdats : (p : Fin 7) → (c : Dev nD) → Dat τ (Elt F) Unit ℕ (UR sig nD τ) ℕ (cfgs p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt6 m) c
  | ⟨4, _⟩ => fun c => dat4 (Vt7 m) c
  | ⟨5, _⟩ => fun c => dat5 (Vt9 m) c
  | ⟨6, _⟩ => fun c => dat6 (Vt11 m) c

end Outs

section Regs

variable (m : (ℓ : Loc nD τ sig) → Buf (Elt F) ℓ)

abbrev 𝒱₀ : Variants := Variants.none

abbrev noL : GSem nD τ sig → Finset Unit := fun _ => ∅
abbrev noLv : GSem nD τ sig → Unit → ℕ := fun _ _ => 0

abbrev rest (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; exact fun x _ => Or.inl (hr ▸ Set.mem_univ x)
  iexact HO

theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩; iexists W; iexact HO

set_option backward.isDefEq.respectTransparency.types false in
def mkReg (p : Fin 7) (launch : Pipeline.LaunchFacts (nD := nD) (τ := τ) cfgs p) (Vin Vout : Dev nD → Valuation τ sig (Elt F))
    (o : Fin (cfgs p).W) (hin : ∀ w, w ≠ o → ((cfgs p).win w).isOut = false)
    (hbody : ∀ c, BodyObligation (pdats m p c) (defs₀ (F := F)) 𝒱₀ () Set.univ)
    (hq : ∀ c w, (pdats m p c).q w = fullShare) (howed : ∀ c t, (pdats m p c).owed t = 0)
    (hrec : ∀ c, (pdats m p c).recorded 0 = Set.univ)
    (hΦin : ∀ c, iprop((∃ r, prngReg c r) ∗ Pipeline.scopedRest (Ix := Unit) (Name := ℕ) (U := UR sig nD τ) (Lvl := ℕ) (cfgs p).spec c)
      ⊢ ((pdats m p c).Φ 0 : sProp 𝕄))
    (hΦout : ∀ c, ((pdats m p c).Φ (Fin.last (cfgs p).N) : sProp 𝕄)
      ⊢ iprop((∃ r, prngReg c r) ∗ Pipeline.scopedRest (Ix := Unit) (Name := ℕ) (U := UR sig nD τ) (Lvl := ℕ) (cfgs p).spec c))
    (hA : ∀ c w, (pdats m p c).A w = atTc Vin c (Pipeline.arrRef (cfgs p).spec w))
    (hV : ∀ c, Vout c = Function.update (Vin c) (Proc.devRef .tc (Pipeline.arrRef (cfgs p).spec o)) ((pdats m p c).arrAt o (cfgs p).N)) :
    Pipeline.RegionSeg (pcfgs (F := F)) adm (pdats m) () defs₀ 𝒱₀ noL noLv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ noL noLv p howed
  pre c := iprop(StableHlo.held (c : Thread nD τ) (Pipeline.ucRefs τ sig) (Vin c) ∗ rest c)
  post c := iprop(StableHlo.held (c : Thread nD τ) (Pipeline.ucRefs τ sig) (Vout c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) launch.win launch.arr_whole c
      ((pdats m p c).share_full (hq c)) (atTc Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m p c) 0 (howed c 0) (hrec c)); iexact HO
    isplitl [Hp]; · iexact Hp
    iexact Hrest
  hin c := by
    refine BIBase.Entails.trans ?_ (hΦin c)
    iintro ⟨Hp, -, Hr⟩
    isplitl [Hp]; · iexact Hp
    iexact Hr
  hout c := by
    rw [Pipeline.ownSems0_none]
    refine BIBase.Entails.trans (hΦout c) ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Vin c) (atTc Vout c) ((pdats m p c).arrAt · (cfgs p).N)
      (fun w => by
        show _ = Vout c _
        rw [hV c]
        by_cases h : w = o
        · subst h; rw [Function.update_self]
        · rw [Function.update_of_ne (StableHlo.devRef_ne_of_ne fun e => h (launch.win.arr_inj e)), (pdats m p c).arrAt_in w (hin w h), hA])
      (fun b hb => by
        show Vout c _ = _
        rw [hV c, Function.update_of_ne (StableHlo.devRef_ne_of_ne fun e =>
          hb (Finset.mem_image.mpr ⟨o, Finset.mem_univ _, e.symm⟩))])
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m p c) (Fin.last _) (howed c _)); iexact HO

def reg0 := mkReg m 0 launch0 (V1 m) (V2 m (outs m)) 3 (by decide) (body_obligation0 (Vt1 m)) (fun _ _ => rfl) (fun _ _ => rfl)
  (fun _ => rfl) (fun _ => sep_symm) (fun _ => sep_symm) (fun c _ => Vt1_eq m c _) fun c => congrArg (Function.update (V1 m c) _) (outs_2 m c)
def reg1 := mkReg m 1 launch1 (V3 m (outs m)) (V4 m (outs m)) 2 (by decide) (body_obligation1 (Vt3 m)) (fun _ _ => rfl) (fun _ _ => rfl)
  (fun _ => rfl) (hin1 (Vt3 m)) (hout1 (Vt3 m)) (fun c _ => Vt3_eq m c _) fun c => congrArg (Function.update (V3 m (outs m) c) _) (outs_4 m c)
def reg2 := mkReg m 2 launch2 (V5 m (outs m)) (V6 m (outs m)) 3 (by decide) (body_obligation2 (Vt5 m)) (fun _ _ => rfl) (fun _ _ => rfl)
  (fun _ => rfl) (fun _ => sep_symm) (fun _ => sep_symm) (fun c _ => Vt5_eq m c _) fun c => congrArg (Function.update (V5 m (outs m) c) _) (outs_6 m c)
def reg3 := mkReg m 3 launch3 (V6 m (outs m)) (V7 m (outs m)) 3 (by decide) (body_obligation3 (Vt6 m)) (fun _ _ => rfl) (fun _ _ => rfl)
  (fun _ => rfl) (fun _ => sep_symm) (fun _ => sep_symm) (fun c _ => Vt6_eq m c _) fun c => congrArg (Function.update (V6 m (outs m) c) _) (outs_7 m c)
def reg4 := mkReg m 4 launch4 (V7 m (outs m)) (V8 m (outs m)) 3 (by decide) (body_obligation4 (Vt7 m)) (fun _ _ => rfl) (fun _ _ => rfl)
  (fun _ => rfl) (fun _ => sep_symm) (fun _ => sep_symm) (fun c _ => Vt7_eq m c _) fun c => congrArg (Function.update (V7 m (outs m) c) _) (outs_8 m c)
def reg5 := mkReg m 5 launch5 (V9 m (outs m)) (V10 m (outs m)) 3 (by decide) (body_obligation5 (Vt9 m)) (fun _ _ => rfl) (fun _ _ => rfl)
  (fun _ => rfl) (fun _ => sep_symm) (fun _ => sep_symm) (fun c _ => Vt9_eq m c _) fun c => congrArg (Function.update (V9 m (outs m) c) _) (outs_10 m c)
def reg6 := mkReg m 6 launch6 (V11 m (outs m)) (V12 m (outs m)) 3 (by decide) (body_obligation6 (Vt11 m)) (fun _ _ => rfl) (fun _ _ => rfl)
  (fun _ => rfl) (fun _ => sep_symm) (fun _ => sep_symm) (fun c _ => Vt11_eq m c _) fun c => congrArg (Function.update (V11 m (outs m) c) _) (outs_12 m c)
end Regs

section Run

variable (m : (ℓ : Loc nD τ sig) → Buf (Elt F) ℓ)

set_option backward.isDefEq.respectTransparency.types false in

theorem run_gen (ρ : Dev nD → PrngReg) {Q : PUnit × MemSt nD τ sig (Elt F) → Prop}
    (hQ : ∀ s : MemSt nD τ sig (Elt F),
      (∀ c : Dev nD, ∀ b ∈ Pipeline.ucRefs τ sig, s.mem (((c : Thread nD τ)).1, b) = V13 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ noL noLv m ρ main
    (segs m (outs m) 𝒱₀ noL noLv (fun _ c => rest c) () (pdats m) (reg0 m) (reg1 m) (reg2 m) (reg3 m) (reg4 m) (reg5 m) (reg6 m))
    (fun c Q => by
      rewrite [main_chain c, Pipeline.Seg.run_eq_chain,
        show ((segs m (outs m) 𝒱₀ noL noLv (fun _ c => rest c) () (pdats m) (reg0 m) (reg1 m) (reg2 m) (reg3 m) (reg4 m) (reg5 m) (reg6 m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach noL noLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      unfold StableHlo.held
      iintro ⟨Hh, HSI⟩
      imodintro
      iapply (pointsTo_read_all (Pipeline.ucRefs τ sig) (fun b => (((c : Thread nD τ)).1, b)) (V13 m (outs m) c) s')
      isplitl [Hh] <;> iassumption)
    (hQ := hQ)

theorem result (ρ : Dev nD → PrngReg) :
    θ_run defs (onTc (τ := τ) (main (F := F))) ⟨m, fun _ => 0, ρ⟩ (fun r => ∀ c : Dev nD,
      r.2.mem ((c.tc : Thread nD τ).loc main_v48) = V13 m (outs m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_gen m ρ fun s h c =>
    ⟨h c _ (mem_uc main_v48 (by decide)),
      (h c _ (mem_uc main_arg0 (by decide))).trans (V13_main_arg0 m (outs m) c),
      (h c _ (mem_uc main_arg1 (by decide))).trans (V13_main_arg1 m (outs m) c),
      (h c _ (mem_uc main_arg2 (by decide))).trans (V13_main_arg2 m (outs m) c),
      (h c _ (mem_uc main_arg3 (by decide))).trans (V13_main_arg3 m (outs m) c),
      (h c _ (mem_uc main_arg4 (by decide))).trans (V13_main_arg4 m (outs m) c),
      (h c _ (mem_uc main_arg5 (by decide))).trans (V13_main_arg5 m (outs m) c),
      (h c _ (mem_uc main_arg6 (by decide))).trans (V13_main_arg6 m (outs m) c),
      (h c _ (mem_uc main_arg7 (by decide))).trans (V13_main_arg7 m (outs m) c),
      (h c _ (mem_uc main_arg8 (by decide))).trans (V13_main_arg8 m (outs m) c),
      (h c _ (mem_uc main_arg9 (by decide))).trans (V13_main_arg9 m (outs m) c),
      (h c _ (mem_uc main_arg10 (by decide))).trans (V13_main_arg10 m (outs m) c),
      (h c _ (mem_uc main_arg11 (by decide))).trans (V13_main_arg11 m (outs m) c),
      (h c _ (mem_uc main_arg12 (by decide))).trans (V13_main_arg12 m (outs m) c),
      (h c _ (mem_uc main_arg13 (by decide))).trans (V13_main_arg13 m (outs m) c)⟩

end Run

end Cert.Kernel.Hand

end
-- ==== Proof.KI.Reg0.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x2048 := Rect.unit (s := S1x2048) ![0, 0] S1x2048.size inb_S1x2048_S1x2048_0_0
abbrev r0_1 : Rect S1024x2048 := Rect.unit (s := S1024x2048) ![0, 0] S1024x2048.size inb_S1024x2048_S1024x2048_0_0
abbrev r0_2 : Rect S1024 := Rect.unit (s := S1024) ![0] S1024.size inb_S1024_S1024_0
abbrev r0_3 : Rect S1x1024 := Rect.unit (s := S1x1024) ![0, 0] S1x1024.size inb_S1x1024_S1x1024_0_0

def out0_3 (x0 : Vec F S1x2048 .f32) (x1 : Vec F S1024x2048 .f32) (x2 : Vec F S1024 .f32) : Vec F S1x1024 .f32 :=
  View.canon [⟨r0_3, k0_pay1 (View.ld x0 r0_0) (View.ld x1 r0_1) (View.ld x2 r0_2)⟩]

theorem cover0_3 (p0 : Vec F S1x1024 .f32) (y : S1x1024.Idx) :
    ∃ pc ∈ ([⟨r0_3, p0⟩] : List (View.Piece (Elt F) S1x1024 .f32)), y ∈ pc.1.set :=
  View.cover_of_tiled [⟨r0_3, p0⟩] S1x1024.size (by rfl) y

set_option maxHeartbeats 1000000 in

theorem sound_kernel0 (c : Dev nD) (E : Set ℕ) (i : grid0.Coords)
    (arg1 : Memref sig .tc .vmem S1x2048 .f32) (harg1 : arg1.IsWhole) (arg2 : Memref sig .tc .vmem S1024x2048 .f32) (harg2 : arg2.IsWhole)
    (arg3 : Memref sig .tc .vmem S1024 .f32) (harg3 : arg3.IsWhole) (arg4 : Memref sig .tc .vmem S1x1024 .f32) (harg4 : arg4.IsWhole)
    (x0 : Vec F S1x2048 .f32) (x1 : Vec F S1024x2048 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.Reg1.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

theorem liveAt1_2 : ∀ t : Fin cfg1.N, cond1_1 (grid1.coords t) → cfg1.idle 2 (grid1.coords t) = false := by decide +kernel

abbrev r1_x : Rect S1x1024 := Rect.unit (s := S1x1024) ![0, 0] S1x1024.size inb_S1x1024_S1x1024_0_0
abbrev r1_W : Rect S1024x1024 := Rect.unit (s := S1024x1024) ![0, 0] S1024x1024.size inb_S1024x1024_S1024x1024_0_0

theorem mem_r1_x (y : S1x1024.Idx) : y ∈ r1_x.set :=
  Rect.mem_set_unit.mpr fun a => ⟨by fin_cases a <;> exact Nat.zero_le _, by have := (y a).isLt; fin_cases a <;> simpa using this⟩

def scr1_first (x0 : Vec F S1x1024 .f32) (x1 : Vec F S1024x1024 .f32) : Vec F S1x1024 .f32 :=
  View.canon [⟨r1_x, k1_pay2 (k1_pay1 (F := F)) (View.ld x0 r1_x) (View.ld x1 r1_W)⟩]

def scr1_next (acc x0 : Vec F S1x1024 .f32) (x1 : Vec F S1024x1024 .f32) : Vec F S1x1024 .f32 :=
  View.canon [⟨r1_x, k1_pay2 (View.ld acc r1_x) (View.ld x0 r1_x) (View.ld x1 r1_W)⟩]

set_option maxHeartbeats 1000000 in

theorem sound_kernel1_A (c : Dev nD) (E : Set ℕ) (i : grid1.Coords) (arg1 : Memref sig .tc .vmem S1x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : cond1_0 i) (hc1 : ¬cond1_1 i)
    (x0 : Vec F S1x1024 .f32) (x1 : Vec F S1024x1024 .f32) (xi2 : Vec F S1x1024 .f32) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (scr1_first x0 x1)) -∗ K ⟨⟩))
      ⊢ wp frame (wpE (defs₀ (F := F)) Variants.none c none) E (cc1__bmm_kernel i arg1 harg1 arg2 harg2 arg3 harg3 arg4 harg4) K := by
  simp only [cc1__bmm_kernel_eq_skeleton]; unfold cc1__bmm_kernel_skel
  unfold owns
  iintro ⟨⟨%f0, %hf0, H0⟩, ⟨%f1, %hf1, H1⟩, ⟨%f2, %hf2, H2⟩, ⟨%ds0, %fs0, -, HS0⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  rw [View.readCov_cons_toLoadRect]
  exact (View.read_writes_of_cover_last _ _ arg4.view arg4.view.junk _ _ [] mem_r1_x).trans (View.read_writes_junk_eq_canon _ _)

set_option maxHeartbeats 1000000 in

theorem sound_kernel1_B (c : Dev nD) (E : Set ℕ) (i : grid1.Coords) (arg1 : Memref sig .tc .vmem S1x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond1_0 i) (hc1 : ¬cond1_1 i)
    (x0 : Vec F S1x1024 .f32) (x1 : Vec F S1024x1024 .f32) (xi2 : Vec F S1x1024 .f32) (acc : Vec F S1x1024 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare acc
        ∗ (iprop(owns (c : Thread nD τ) arg1 fullShare x0 ∗ owns (c : Thread nD τ) arg2 fullShare x1 ∗ owns (c : Thread nD τ) arg3 fullShare xi2 ∗ owns (c : Thread nD τ) arg4 fullShare (scr1_next acc x0 x1)) -∗ K ⟨⟩))
      ⊢ wp frame (wpE (defs₀ (F := F)) Variants.none c none) E (cc1__bmm_kernel i arg1 harg1 arg2 harg2 arg3 harg3 arg4 harg4) K := by
  simp only [cc1__bmm_kernel_eq_skeleton]; unfold cc1__bmm_kernel_skel
  unfold owns
  iintro ⟨⟨%f0, %hf0, H0⟩, ⟨%f1, %hf1, H1⟩, ⟨%f2, %hf2, H2⟩, ⟨%fs0, %hfs0, HS0⟩, Hk⟩
  subst hf0; subst hf1; subst hf2; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS0
  ipureintro
  sl_unfold_run_names
  exact (View.read_writes_of_cover_last _ _ arg4.view arg4.view.junk _ _ [] mem_r1_x).trans (View.read_writes_junk_eq_canon _ _)

set_option maxHeartbeats 1000000 in

theorem sound_kernel1_C (c : Dev nD) (E : Set ℕ) (i : grid1.Coords) (arg1 : Memref sig .tc .vmem S1x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond1_0 i) (hc1 : cond1_1 i)
    (x0 : Vec F S1x1024 .f32) (x1 : Vec F S1024x1024 .f32) (acc : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare acc
        ∗ (iprop(owns (c : Thread nD τ) arg1 fullShare x0 ∗ owns (c : Thread nD τ) arg2 fullShare x1 ∗ owns (c : Thread nD τ) arg3 fullShare (scr1_next acc x0 x1) ∗ owns (c : Thread nD τ) arg4 fullShare (scr1_next acc x0 x1)) -∗ K ⟨⟩))
      ⊢ wp frame (wpE (defs₀ (F := F)) Variants.none c none) E (cc1__bmm_kernel i arg1 harg1 arg2 harg2 arg3 harg3 arg4 harg4) K := by
  simp only [cc1__bmm_kernel_eq_skeleton]; unfold cc1__bmm_kernel_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.readCov_cons_toLoadRect]
    exact (View.read_writes_of_cover_last _ _ arg3.view arg3.view.junk _ _ [] mem_r1_x).trans (View.read_writes_junk_eq_canon _ _)
  iexists _; isplitr
  swap; · iexact HS0
  ipureintro
  sl_unfold_run_names
  exact (View.read_writes_of_cover_last _ _ arg4.view arg4.view.junk _ _ [] mem_r1_x).trans (View.read_writes_junk_eq_canon _ _)

def scratchAt1 (c : Dev nD) : (n : ℕ) → n < cfg1.N → Vec F S1x1024 .f32
  | 0, hn => scr1_first (iblk1 V c 0 ⟨0, hn⟩) (iblk1 V c 1 ⟨0, hn⟩)
  | n + 1, hn => scr1_next (scratchAt1 c n (Nat.lt_of_succ_lt hn)) (iblk1 V c 0 ⟨n + 1, hn⟩) (iblk1 V c 1 ⟨n + 1, hn⟩)

theorem scratchAt1_first (c : Dev nD) (t : Fin cfg1.N) (h : t.val = 0) :
    scratchAt1 V c t.val t.isLt = scr1_first (iblk1 V c 0 t) (iblk1 V c 1 t) := by
  obtain ⟨n, hn⟩ := t
  cases n with
  | zero => rfl
  | succ n => exact absurd h (Nat.succ_ne_zero n)

theorem scratchAt1_pos (c : Dev nD) (t : Fin cfg1.N) (h : t.val ≠ 0) :
    scratchAt1 V c t.val t.isLt
      = scr1_next (scratchAt1 V c (t.val - 1) (Nat.lt_of_le_of_lt (Nat.sub_le _ _) t.isLt)) (iblk1 V c 0 t) (iblk1 V c 1 t) := by
  obtain ⟨n, hn⟩ := t
  cases n with
  | zero => exact absurd rfl h
  | succ n => rfl

theorem scratchAt1_last (c : Dev nD) :
    scratchAt1 V c t1_3.val t1_3.isLt
      = scr1_next (scr1_next (scr1_next (scr1_first (iblk1 V c 0 t1_0) (iblk1 V c 1 t1_0)) (iblk1 V c 0 t1_1) (iblk1 V c 1 t1_1))
          (iblk1 V c 0 t1_2) (iblk1 V c 1 t1_2)) (iblk1 V c 0 t1_3) (iblk1 V c 1 t1_3) := rfl

abbrev scM1 : Memref sig .tc .vmem S1x1024 .f32 := Memref.whole cc1_scratch0

def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop(owns (c : Thread nD τ) scM1 fullShare (scratchAt1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) spec1 c) := by
  subst hz; rfl

theorem PhiS1_succ (c : Dev nD) (n : ℕ) (hn : n < cfg1.N) :
    PhiS1 V c (n + 1) hn = iprop(owns (c : Thread nD τ) scM1 fullShare (scratchAt1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (scratchAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

theorem entry1_eq (c : Dev nD) :
    (iprop((∃ r, prngReg c r) ∗ Pipeline.scopedRest (Ix := Unit) (Name := ℕ) (U := UR sig nD τ) (Lvl := ℕ) spec1 c) : sProp 𝕄)
      = iprop((∃ r, prngReg c r) ∗ (iprop(∃ d, owns (c : Thread nD τ) scM1 fullShare d)
          ∗ Pipeline.scopedRestBut (Ix := Unit) (Name := ℕ) (U := UR sig nD τ) (Lvl := ℕ) (Val := Elt F) spec1 c [cc1_scratch0])) := by
  rw [scopedRest1_split]; simp only [scM1, owns_whole]; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scratchAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scratchAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [PhiS1_castSucc V c t]
  have hN : t.val < 4 := lt_of_lt_of_eq t.isLt (show cfg1.N = 4 from N_1)
  by_cases h0 : t.val % 4 = 0
  ·
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [scratchAt1_first V c t hz, PhiS1_zero V c _ _ hz, entry1_eq]
    iintro ⟨⟨Hg, ⟨%ds, HS⟩, HR⟩, Ho, ⟨%d0, H0⟩, ⟨%d1, H1⟩, ⟨%d2, H2⟩⟩
    iapply (sound_kernel1_A c Set.univ (grid1.coords t) _ _ _ _ _ _ _ _ hc0 hc1 (iblk1 V c 0 t) (iblk1 V c 1 t) _ _)
    isplitl [H0]; · iexact H0
    isplitl [H1]; · iexact H1
    isplitl [H2]; · iexact H2
    isplitl [HS]; · iexists _; iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hz : t.val ≠ 0 := by omega
    have hc0 : ¬cond1_0 (grid1.coords t) := fun h => h0 ((hcond1_0 t).mp h)
    by_cases h1 : t.val % 4 = 3
    ·
      have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [scratchAt1_pos V c t hz, PhiS1_pos V c _ _ hz]
      iintro ⟨⟨HS, HR, Hg⟩, Ho, ⟨%d0, H0⟩, ⟨%d1, H1⟩, ⟨%d2, H2⟩⟩
      iapply (sound_kernel1_C c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    ·
      have hc1 : ¬cond1_1 (grid1.coords t) := fun h => h1 ((hcond1_1 t).mp h)
      rw [Dat.leavesExact_idle (dat1 V c) 2 t (idleAt1_2 t hc1) (noFlush1_2 t hc1)]
      rw [scratchAt1_pos V c t hz, PhiS1_pos V c _ _ hz]
      iintro ⟨⟨HS, HR, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.scopedRest (Ix := Unit) (Name := ℕ) (U := UR sig nD τ) (Lvl := ℕ) spec1 c) ⊢ ((dat1 V c).Φ 0 : sProp 𝕄) := by
  rw [show (dat1 V c).Φ 0 = PhiS1 V c 0 (Nat.zero_le _) from rfl, PhiS1_zero V c 0 _ rfl]

theorem hout1 (c : Dev nD) : ((dat1 V c).Φ (Fin.last cfg1.N) : sProp 𝕄) ⊢ iprop((∃ r, prngReg c r) ∗ Pipeline.scopedRest (Ix := Unit) (Name := ℕ) (U := UR sig nD τ) (Lvl := ℕ) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 4 := N_1; omega), entry1_eq]
  iintro ⟨HS, HR, Hg⟩
  isplitl [Hg]; · iexact Hg
  isplitl [HS]; · iexists _; iexact HS
  iexact HR

theorem flushed1_2 (c : Dev nD) (t : Fin cfg1.N) :
    (dat1 V c).flushed 2 t = (cfg1.win 2).cut (grid1.coords t) (scratchAt1 V c t.val t.isLt) := by
  show (cfg1.win 2).cut (grid1.coords t) ((dat1 V c).after 2 t) = _
  rw [after1_2]

theorem arrAt1_2 (c : Dev nD) :
    (dat1 V c).arrAt 2 cfg1.N
      = ((cfg1.win 2).blk t1_3).view.write (Elt F) (V c (Pipeline.arrRef spec1 2))
          ((cfg1.win 2).cut (grid1.coords t1_3) (scratchAt1 V c t1_3.val t1_3.isLt)) Finset.univ := by
  have nf : ∀ t : Fin cfg1.N, t.val % 4 ≠ 3 → ¬((cfg1.win 2).flush t = true) := fun t h hf => h ((flush1_2 t).mp hf)
  have e0 : (dat1 V c).arrAt 2 (t1_0.val + 1) = (dat1 V c).arrAt 2 t1_0.val := by
    rw [(dat1 V c).arrAt_succ 2 t1_0, if_neg (nf t1_0 (by decide))]
  have e1 : (dat1 V c).arrAt 2 (t1_1.val + 1) = (dat1 V c).arrAt 2 t1_1.val := by
    rw [(dat1 V c).arrAt_succ 2 t1_1, if_neg (nf t1_1 (by decide))]
  have e2 : (dat1 V c).arrAt 2 (t1_2.val + 1) = (dat1 V c).arrAt 2 t1_2.val := by
    rw [(dat1 V c).arrAt_succ 2 t1_2, if_neg (nf t1_2 (by decide))]
  have e3 : (dat1 V c).arrAt 2 t1_3.val = V c (Pipeline.arrRef spec1 2) :=
    (e2.trans (e1.trans e0)).trans (A_eq1 V c 2)
  have e4 : (dat1 V c).arrAt 2 cfg1.N = (dat1 V c).arrAt 2 (t1_3.val + 1) := congrArg _ (show cfg1.N = t1_3.val + 1 from N_1)
  rw [e4, (dat1 V c).arrAt_succ 2 t1_3, if_pos ((flush1_2 t1_3).mpr (by decide)), flushed1_2, e3]

end Region1

end Cert.KernelIdeal.Hand

end
-- ==== Proof.KI.Reg2.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x2048 := Rect.unit (s := S1x2048) ![0, 0] S1x2048.size inb_S1x2048_S1x2048_0_0
abbrev r2_1 : Rect S1024x2048 := Rect.unit (s := S1024x2048) ![0, 0] S1024x2048.size inb_S1024x2048_S1024x2048_0_0
abbrev r2_2 : Rect S1024 := Rect.unit (s := S1024) ![0] S1024.size inb_S1024_S1024_0
abbrev r2_3 : Rect S1x1024 := Rect.unit (s := S1x1024) ![0, 0] S1x1024.size inb_S1x1024_S1x1024_0_0

def out2_3 (x0 : Vec F S1x2048 .f32) (x1 : Vec F S1024x2048 .f32) (x2 : Vec F S1024 .f32) : Vec F S1x1024 .f32 :=
  View.canon [⟨r2_3, k2_pay1 (View.ld x0 r2_0) (View.ld x1 r2_1) (View.ld x2 r2_2)⟩]

theorem cover2_3 (p0 : Vec F S1x1024 .f32) (y : S1x1024.Idx) :
    ∃ pc ∈ ([⟨r2_3, p0⟩] : List (View.Piece (Elt F) S1x1024 .f32)), y ∈ pc.1.set :=
  View.cover_of_tiled [⟨r2_3, p0⟩] S1x1024.size (by rfl) y

set_option maxHeartbeats 1000000 in

theorem sound_kernel2 (c : Dev nD) (E : Set ℕ) (i : grid2.Coords)
    (arg1 : Memref sig .tc .vmem S1x2048 .f32) (harg1 : arg1.IsWhole) (arg2 : Memref sig .tc .vmem S1024x2048 .f32) (harg2 : arg2.IsWhole)
    (arg3 : Memref sig .tc .vmem S1024 .f32) (harg3 : arg3.IsWhole) (arg4 : Memref sig .tc .vmem S1x1024 .f32) (harg4 : arg4.IsWhole)
    (x0 : Vec F S1x2048 .f32) (x1 : Vec F S1024x2048 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.Reg3.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1x1024 := Rect.unit (s := S1x1024) ![0, 0] S1x1024.size inb_S1x1024_S1x1024_0_0
abbrev r3_1 : Rect S3072x1024 := Rect.unit (s := S3072x1024) ![0, 0] S3072x1024.size inb_S3072x1024_S3072x1024_0_0
abbrev r3_2 : Rect S3072 := Rect.unit (s := S3072) ![0] S3072.size inb_S3072_S3072_0
abbrev r3_3 : Rect S1x3072 := Rect.unit (s := S1x3072) ![0, 0] S1x3072.size inb_S1x3072_S1x3072_0_0

def out3_3 (x0 : Vec F S1x1024 .f32) (x1 : Vec F S3072x1024 .f32) (x2 : Vec F S3072 .f32) : Vec F S1x3072 .f32 :=
  View.canon [⟨r3_3, k3_pay1 (View.ld x0 r3_0) (View.ld x1 r3_1) (View.ld x2 r3_2)⟩]

theorem cover3_3 (p0 : Vec F S1x3072 .f32) (y : S1x3072.Idx) :
    ∃ pc ∈ ([⟨r3_3, p0⟩] : List (View.Piece (Elt F) S1x3072 .f32)), y ∈ pc.1.set :=
  View.cover_of_tiled [⟨r3_3, p0⟩] S1x3072.size (by rfl) y

set_option maxHeartbeats 1000000 in

theorem sound_kernel3 (c : Dev nD) (E : Set ℕ) (i : grid3.Coords)
    (arg1 : Memref sig .tc .vmem S1x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S1x3072 .f32) (harg4 : arg4.IsWhole)
    (x0 : Vec F S1x1024 .f32) (x1 : Vec F S3072x1024 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KI.Reg4.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1x1024 := Rect.unit (s := S1x1024) ![0, 0] S1x1024.size inb_S1x1024_S1x1024_0_0
abbrev r4_1 : Rect S3072x1024 := Rect.unit (s := S3072x1024) ![0, 0] S3072x1024.size inb_S3072x1024_S3072x1024_0_0
abbrev r4_2 : Rect S3072 := Rect.unit (s := S3072) ![0] S3072.size inb_S3072_S3072_0
abbrev r4_3 : Rect S1x3072 := Rect.unit (s := S1x3072) ![0, 0] S1x3072.size inb_S1x3072_S1x3072_0_0

def out4_3 (x0 : Vec F S1x1024 .f32) (x1 : Vec F S3072x1024 .f32) (x2 : Vec F S3072 .f32) : Vec F S1x3072 .f32 :=
  View.canon [⟨r4_3, k4_pay1 (View.ld x0 r4_0) (View.ld x1 r4_1) (View.ld x2 r4_2)⟩]

theorem cover4_3 (p0 : Vec F S1x3072 .f32) (y : S1x3072.Idx) :
    ∃ pc ∈ ([⟨r4_3, p0⟩] : List (View.Piece (Elt F) S1x3072 .f32)), y ∈ pc.1.set :=
  View.cover_of_tiled [⟨r4_3, p0⟩] S1x3072.size (by rfl) y

set_option maxHeartbeats 1000000 in

theorem sound_kernel4 (c : Dev nD) (E : Set ℕ) (i : grid4.Coords)
    (arg1 : Memref sig .tc .vmem S1x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S1x3072 .f32) (harg4 : arg4.IsWhole)
    (x0 : Vec F S1x1024 .f32) (x1 : Vec F S3072x1024 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KI.Reg5.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1x1024 := Rect.unit (s := S1x1024) ![0, 0] S1x1024.size inb_S1x1024_S1x1024_0_0
abbrev r5_1 : Rect S4096x1024 := Rect.unit (s := S4096x1024) ![0, 0] S4096x1024.size inb_S4096x1024_S4096x1024_0_0
abbrev r5_2 : Rect S4096 := Rect.unit (s := S4096) ![0] S4096.size inb_S4096_S4096_0
abbrev r5_3 : Rect S1x4096 := Rect.unit (s := S1x4096) ![0, 0] S1x4096.size inb_S1x4096_S1x4096_0_0

def out5_3 (x0 : Vec F S1x1024 .f32) (x1 : Vec F S4096x1024 .f32) (x2 : Vec F S4096 .f32) : Vec F S1x4096 .f32 :=
  View.canon [⟨r5_3, k5_pay1 (View.ld x0 r5_0) (View.ld x1 r5_1) (View.ld x2 r5_2)⟩]

theorem cover5_3 (p0 : Vec F S1x4096 .f32) (y : S1x4096.Idx) :
    ∃ pc ∈ ([⟨r5_3, p0⟩] : List (View.Piece (Elt F) S1x4096 .f32)), y ∈ pc.1.set :=
  View.cover_of_tiled [⟨r5_3, p0⟩] S1x4096.size (by rfl) y

set_option maxHeartbeats 1000000 in

theorem sound_kernel5 (c : Dev nD) (E : Set ℕ) (i : grid5.Coords)
    (arg1 : Memref sig .tc .vmem S1x1024 .f32) (harg1 : arg1.IsWhole) (arg2 : Memref sig .tc .vmem S4096x1024 .f32) (harg2 : arg2.IsWhole)
    (arg3 : Memref sig .tc .vmem S4096 .f32) (harg3 : arg3.IsWhole) (arg4 : Memref sig .tc .vmem S1x4096 .f32) (harg4 : arg4.IsWhole)
    (x0 : Vec F S1x1024 .f32) (x1 : Vec F S4096x1024 .f32) (x2 : Vec F S4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Region

end Cert.KernelIdeal.Hand

end
-- ==== Proof.KI.Reg6.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x1024 := Rect.unit (s := S1x1024) ![0, 0] S1x1024.size inb_S1x1024_S1x1024_0_0
abbrev r6_1 : Rect S1105x1024 := Rect.unit (s := S1105x1024) ![0, 0] S1105x1024.size inb_S1105x1024_S1105x1024_0_0
abbrev r6_2 : Rect S1105 := Rect.unit (s := S1105) ![0] S1105.size inb_S1105_S1105_0
abbrev r6_3 : Rect S1x1105 := Rect.unit (s := S1x1105) ![0, 0] S1x1105.size inb_S1x1105_S1x1105_0_0

def out6_3 (x0 : Vec F S1x1024 .f32) (x1 : Vec F S1105x1024 .f32) (x2 : Vec F S1105 .f32) : Vec F S1x1105 .f32 :=
  View.canon [⟨r6_3, k6_pay1 (View.ld x0 r6_0) (View.ld x1 r6_1) (View.ld x2 r6_2)⟩]

theorem cover6_3 (p0 : Vec F S1x1105 .f32) (y : S1x1105.Idx) :
    ∃ pc ∈ ([⟨r6_3, p0⟩] : List (View.Piece (Elt F) S1x1105 .f32)), y ∈ pc.1.set :=
  View.cover_of_tiled [⟨r6_3, p0⟩] S1x1105.size (by rfl) y

set_option maxHeartbeats 1000000 in

theorem sound_kernel6 (c : Dev nD) (E : Set ℕ) (i : grid6.Coords)
    (arg1 : Memref sig .tc .vmem S1x1024 .f32) (harg1 : arg1.IsWhole) (arg2 : Memref sig .tc .vmem S1105x1024 .f32) (harg2 : arg2.IsWhole)
    (arg3 : Memref sig .tc .vmem S1105 .f32) (harg3 : arg3.IsWhole) (arg4 : Memref sig .tc .vmem S1x1105 .f32) (harg4 : arg4.IsWhole)
    (x0 : Vec F S1x1024 .f32) (x1 : Vec F S1105x1024 .f32) (x2 : Vec F S1105 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6_kernel i arg1 harg1 arg2 harg2 arg3 harg3 arg4 harg4) K := by
  simp only [cc6_kernel_eq_skeleton]; unfold cc6_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Region

end Cert.KernelIdeal.Hand

end
-- ==== Proof.KI.Run.lean ====
import proofs.«163280_j13889924235715_1_alg».proof.Proof.KI.Reg0
import proofs.«163280_j13889924235715_1_alg».proof.Proof.KI.Reg1
import proofs.«163280_j13889924235715_1_alg».proof.Proof.KI.Reg2
import proofs.«163280_j13889924235715_1_alg».proof.Proof.KI.Reg3
import proofs.«163280_j13889924235715_1_alg».proof.Proof.KI.Reg4
import proofs.«163280_j13889924235715_1_alg».proof.Proof.KI.Reg5
import proofs.«163280_j13889924235715_1_alg».proof.Proof.KI.Reg6
import proofs.«163280_j13889924235715_1_alg».proof.Proof.Gen.KernelIdeal.Regions
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Outs

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def U1 (c : Dev nD) : Valuation τ sig (Elt F) := StableHlo.after hostOps0 (V0 m c)

def U2 (c : Dev nD) : Valuation τ sig (Elt F) :=
  Function.update (U1 m c) main_v7 ((dat0 (atTc (U1 m)) c).arrAt 3 cfg0.N : Buf (Elt F) ((c : Thread nD τ).loc main_v7))

def U3 (c : Dev nD) : Valuation τ sig (Elt F) := StableHlo.after hostOps1 (U2 m c)

def U4 (c : Dev nD) : Valuation τ sig (Elt F) :=
  Function.update (U3 m c) main_v9 ((dat1 (atTc (U3 m)) c).arrAt 2 cfg1.N : Buf (Elt F) ((c : Thread nD τ).loc main_v9))

def U5 (c : Dev nD) : Valuation τ sig (Elt F) := StableHlo.after hostOps2 (U4 m c)

def U6 (c : Dev nD) : Valuation τ sig (Elt F) :=
  Function.update (U5 m c) main_v11 ((dat2 (atTc (U5 m)) c).arrAt 3 cfg2.N : Buf (Elt F) ((c : Thread nD τ).loc main_v11))

def U7 (c : Dev nD) : Valuation τ sig (Elt F) :=
  Function.update (U6 m c) main_v12 ((dat3 (atTc (U6 m)) c).arrAt 3 cfg3.N : Buf (Elt F) ((c : Thread nD τ).loc main_v12))

def U8 (c : Dev nD) : Valuation τ sig (Elt F) :=
  Function.update (U7 m c) main_v13 ((dat4 (atTc (U7 m)) c).arrAt 3 cfg4.N : Buf (Elt F) ((c : Thread nD τ).loc main_v13))

def U9 (c : Dev nD) : Valuation τ sig (Elt F) := StableHlo.after hostOps5 (U8 m c)

def U10 (c : Dev nD) : Valuation τ sig (Elt F) :=
  Function.update (U9 m c) main_v44 ((dat5 (atTc (U9 m)) c).arrAt 3 cfg5.N : Buf (Elt F) ((c : Thread nD τ).loc main_v44))

def U11 (c : Dev nD) : Valuation τ sig (Elt F) := StableHlo.after hostOps6 (U10 m c)

def U12 (c : Dev nD) : Valuation τ sig (Elt F) :=
  Function.update (U11 m c) main_v47 ((dat6 (atTc (U11 m)) c).arrAt 3 cfg6.N : Buf (Elt F) ((c : Thread nD τ).loc main_v47))

abbrev Vt1 : (c : Dev nD) → (b : Ref sig .tc) → Buf (Elt F) ((c : Thread nD τ).loc b) := atTc (U1 m)

abbrev Vt3 : (c : Dev nD) → (b : Ref sig .tc) → Buf (Elt F) ((c : Thread nD τ).loc b) := atTc (U3 m)

abbrev Vt5 : (c : Dev nD) → (b : Ref sig .tc) → Buf (Elt F) ((c : Thread nD τ).loc b) := atTc (U5 m)

abbrev Vt6 : (c : Dev nD) → (b : Ref sig .tc) → Buf (Elt F) ((c : Thread nD τ).loc b) := atTc (U6 m)

abbrev Vt7 : (c : Dev nD) → (b : Ref sig .tc) → Buf (Elt F) ((c : Thread nD τ).loc b) := atTc (U7 m)

abbrev Vt9 : (c : Dev nD) → (b : Ref sig .tc) → Buf (Elt F) ((c : Thread nD τ).loc b) := atTc (U9 m)

abbrev Vt11 : (c : Dev nD) → (b : Ref sig .tc) → Buf (Elt F) ((c : Thread nD τ).loc b) := atTc (U11 m)

def outs : Outs (F := F) := fun J r c =>
  match J with
  | 2 => U2 m c (Proc.devRef .tc r)
  | 4 => U4 m c (Proc.devRef .tc r)
  | 6 => U6 m c (Proc.devRef .tc r)
  | 7 => U7 m c (Proc.devRef .tc r)
  | 8 => U8 m c (Proc.devRef .tc r)
  | 10 => U10 m c (Proc.devRef .tc r)
  | 12 => U12 m c (Proc.devRef .tc r)
  | _ => m ((c : Thread nD τ).loc r)

theorem outs_2 (c : Dev nD) : outs m 2 main_v7 c = (dat0 (Vt1 m) c).arrAt 3 cfg0.N := by
  show U2 m c (Proc.devRef .tc main_v7) = _
  unfold U2; exact Function.update_self _ _ _

theorem outs_4 (c : Dev nD) : outs m 4 main_v9 c = (dat1 (Vt3 m) c).arrAt 2 cfg1.N := by
  show U4 m c (Proc.devRef .tc main_v9) = _
  unfold U4; exact Function.update_self _ _ _

theorem outs_6 (c : Dev nD) : outs m 6 main_v11 c = (dat2 (Vt5 m) c).arrAt 3 cfg2.N := by
  show U6 m c (Proc.devRef .tc main_v11) = _
  unfold U6; exact Function.update_self _ _ _

theorem outs_7 (c : Dev nD) : outs m 7 main_v12 c = (dat3 (Vt6 m) c).arrAt 3 cfg3.N := by
  show U7 m c (Proc.devRef .tc main_v12) = _
  unfold U7; exact Function.update_self _ _ _

theorem outs_8 (c : Dev nD) : outs m 8 main_v13 c = (dat4 (Vt7 m) c).arrAt 3 cfg4.N := by
  show U8 m c (Proc.devRef .tc main_v13) = _
  unfold U8; exact Function.update_self _ _ _

theorem outs_10 (c : Dev nD) : outs m 10 main_v44 c = (dat5 (Vt9 m) c).arrAt 3 cfg5.N := by
  show U10 m c (Proc.devRef .tc main_v44) = _
  unfold U10; exact Function.update_self _ _ _

theorem outs_12 (c : Dev nD) : outs m 12 main_v47 c = (dat6 (Vt11 m) c).arrAt 3 cfg6.N := by
  show U12 m c (Proc.devRef .tc main_v47) = _
  unfold U12; exact Function.update_self _ _ _

theorem V1_eq (c : Dev nD) : V1 m c = U1 m c := rfl
theorem V2_eq (c : Dev nD) : V2 m (outs m) c = U2 m c := by
  show Function.update (V1 m c) _ (outs m 2 main_v7 c) = _; rw [outs_2, V1_eq]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) _ (outs m 4 main_v9 c) = _; rw [outs_4, V3_eq]; rfl
theorem V5_eq (c : Dev nD) : V5 m (outs m) c = U5 m c := by
  show StableHlo.after hostOps2 (V4 m (outs m) c) = _; rw [V4_eq]; rfl
theorem V6_eq (c : Dev nD) : V6 m (outs m) c = U6 m c := by
  show Function.update (V5 m (outs m) c) _ (outs m 6 main_v11 c) = _; rw [outs_6, V5_eq]; rfl
theorem V7_eq (c : Dev nD) : V7 m (outs m) c = U7 m c := by
  show Function.update (V6 m (outs m) c) _ (outs m 7 main_v12 c) = _; rw [outs_7, V6_eq]; rfl
theorem V8_eq (c : Dev nD) : V8 m (outs m) c = U8 m c := by
  show Function.update (V7 m (outs m) c) _ (outs m 8 main_v13 c) = _; rw [outs_8, V7_eq]; rfl
theorem V9_eq (c : Dev nD) : V9 m (outs m) c = U9 m c := by
  show StableHlo.after hostOps5 (V8 m (outs m) c) = _; rw [V8_eq]; rfl
theorem V10_eq (c : Dev nD) : V10 m (outs m) c = U10 m c := by
  show Function.update (V9 m (outs m) c) _ (outs m 10 main_v44 c) = _; rw [outs_10, V9_eq]; rfl
theorem V11_eq (c : Dev nD) : V11 m (outs m) c = U11 m c := by
  show StableHlo.after hostOps6 (V10 m (outs m) c) = _; rw [V10_eq]; rfl
theorem Vt1_eq (c : Dev nD) (b : Ref sig .tc) : Vt1 m c b = V1 m c (Proc.devRef .tc b) := by rw [V1_eq]
theorem Vt3_eq (c : Dev nD) (b : Ref sig .tc) : Vt3 m c b = V3 m (outs m) c (Proc.devRef .tc b) := by rw [V3_eq]
theorem Vt5_eq (c : Dev nD) (b : Ref sig .tc) : Vt5 m c b = V5 m (outs m) c (Proc.devRef .tc b) := by rw [V5_eq]
theorem Vt6_eq (c : Dev nD) (b : Ref sig .tc) : Vt6 m c b = V6 m (outs m) c (Proc.devRef .tc b) := by rw [V6_eq]
theorem Vt7_eq (c : Dev nD) (b : Ref sig .tc) : Vt7 m c b = V7 m (outs m) c (Proc.devRef .tc b) := by rw [V7_eq]
theorem Vt9_eq (c : Dev nD) (b : Ref sig .tc) : Vt9 m c b = V9 m (outs m) c (Proc.devRef .tc b) := by rw [V9_eq]
theorem Vt11_eq (c : Dev nD) (b : Ref sig .tc) : Vt11 m c b = V11 m (outs m) c (Proc.devRef .tc b) := by rw [V11_eq]

def pdats : (p : Fin 7) → (c : Dev nD) → Dat τ (Elt F) Unit ℕ (UR sig nD τ) ℕ (cfgs p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt6 m) c
  | ⟨4, _⟩ => fun c => dat4 (Vt7 m) c
  | ⟨5, _⟩ => fun c => dat5 (Vt9 m) c
  | ⟨6, _⟩ => fun c => dat6 (Vt11 m) c

end Outs

section Regs

variable (m : (ℓ : Loc nD τ sig) → Buf (Elt F) ℓ)

abbrev 𝒱₀ : Variants := Variants.none

abbrev noL : GSem nD τ sig → Finset Unit := fun _ => ∅
abbrev noLv : GSem nD τ sig → Unit → ℕ := fun _ _ => 0

abbrev rest (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; exact fun x _ => Or.inl (hr ▸ Set.mem_univ x)
  iexact HO

theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩; iexists W; iexact HO

set_option backward.isDefEq.respectTransparency.types false in
def mkReg (p : Fin 7) (launch : Pipeline.LaunchFacts (nD := nD) (τ := τ) cfgs p) (Vin Vout : Dev nD → Valuation τ sig (Elt F))
    (o : Fin (cfgs p).W) (hin : ∀ w, w ≠ o → ((cfgs p).win w).isOut = false)
    (hbody : ∀ c, BodyObligation (pdats m p c) (defs₀ (F := F)) 𝒱₀ () Set.univ)
    (hq : ∀ c w, (pdats m p c).q w = fullShare) (howed : ∀ c t, (pdats m p c).owed t = 0)
    (hrec : ∀ c, (pdats m p c).recorded 0 = Set.univ)
    (hΦin : ∀ c, iprop((∃ r, prngReg c r) ∗ Pipeline.scopedRest (Ix := Unit) (Name := ℕ) (U := UR sig nD τ) (Lvl := ℕ) (cfgs p).spec c)
      ⊢ ((pdats m p c).Φ 0 : sProp 𝕄))
    (hΦout : ∀ c, ((pdats m p c).Φ (Fin.last (cfgs p).N) : sProp 𝕄)
      ⊢ iprop((∃ r, prngReg c r) ∗ Pipeline.scopedRest (Ix := Unit) (Name := ℕ) (U := UR sig nD τ) (Lvl := ℕ) (cfgs p).spec c))
    (hA : ∀ c w, (pdats m p c).A w = atTc Vin c (Pipeline.arrRef (cfgs p).spec w))
    (hV : ∀ c, Vout c = Function.update (Vin c) (Proc.devRef .tc (Pipeline.arrRef (cfgs p).spec o)) ((pdats m p c).arrAt o (cfgs p).N)) :
    Pipeline.RegionSeg (pcfgs (F := F)) adm (pdats m) () defs₀ 𝒱₀ noL noLv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ noL noLv p howed
  pre c := iprop(StableHlo.held (c : Thread nD τ) (Pipeline.ucRefs τ sig) (Vin c) ∗ rest c)
  post c := iprop(StableHlo.held (c : Thread nD τ) (Pipeline.ucRefs τ sig) (Vout c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) launch.win launch.arr_whole c
      ((pdats m p c).share_full (hq c)) (atTc Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m p c) 0 (howed c 0) (hrec c)); iexact HO
    isplitl [Hp]; · iexact Hp
    iexact Hrest
  hin c := by
    refine BIBase.Entails.trans ?_ (hΦin c)
    iintro ⟨Hp, -, Hr⟩
    isplitl [Hp]; · iexact Hp
    iexact Hr
  hout c := by
    rw [Pipeline.ownSems0_none]
    refine BIBase.Entails.trans (hΦout c) ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Vin c) (atTc Vout c) ((pdats m p c).arrAt · (cfgs p).N)
      (fun w => by
        show _ = Vout c _
        rw [hV c]
        by_cases h : w = o
        · subst h; rw [Function.update_self]
        · rw [Function.update_of_ne (StableHlo.devRef_ne_of_ne fun e => h (launch.win.arr_inj e)), (pdats m p c).arrAt_in w (hin w h), hA])
      (fun b hb => by
        show Vout c _ = _
        rw [hV c, Function.update_of_ne (StableHlo.devRef_ne_of_ne fun e =>
          hb (Finset.mem_image.mpr ⟨o, Finset.mem_univ _, e.symm⟩))])
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m p c) (Fin.last _) (howed c _)); iexact HO

def reg0 := mkReg m 0 launch0 (V1 m) (V2 m (outs m)) 3 (by decide) (body_obligation0 (Vt1 m)) (fun _ _ => rfl) (fun _ _ => rfl)
  (fun _ => rfl) (fun _ => sep_symm) (fun _ => sep_symm) (fun c _ => Vt1_eq m c _) fun c => congrArg (Function.update (V1 m c) _) (outs_2 m c)
def reg1 := mkReg m 1 launch1 (V3 m (outs m)) (V4 m (outs m)) 2 (by decide) (body_obligation1 (Vt3 m)) (fun _ _ => rfl) (fun _ _ => rfl)
  (fun _ => rfl) (hin1 (Vt3 m)) (hout1 (Vt3 m)) (fun c _ => Vt3_eq m c _) fun c => congrArg (Function.update (V3 m (outs m) c) _) (outs_4 m c)
def reg2 := mkReg m 2 launch2 (V5 m (outs m)) (V6 m (outs m)) 3 (by decide) (body_obligation2 (Vt5 m)) (fun _ _ => rfl) (fun _ _ => rfl)
  (fun _ => rfl) (fun _ => sep_symm) (fun _ => sep_symm) (fun c _ => Vt5_eq m c _) fun c => congrArg (Function.update (V5 m (outs m) c) _) (outs_6 m c)
def reg3 := mkReg m 3 launch3 (V6 m (outs m)) (V7 m (outs m)) 3 (by decide) (body_obligation3 (Vt6 m)) (fun _ _ => rfl) (fun _ _ => rfl)
  (fun _ => rfl) (fun _ => sep_symm) (fun _ => sep_symm) (fun c _ => Vt6_eq m c _) fun c => congrArg (Function.update (V6 m (outs m) c) _) (outs_7 m c)
def reg4 := mkReg m 4 launch4 (V7 m (outs m)) (V8 m (outs m)) 3 (by decide) (body_obligation4 (Vt7 m)) (fun _ _ => rfl) (fun _ _ => rfl)
  (fun _ => rfl) (fun _ => sep_symm) (fun _ => sep_symm) (fun c _ => Vt7_eq m c _) fun c => congrArg (Function.update (V7 m (outs m) c) _) (outs_8 m c)
def reg5 := mkReg m 5 launch5 (V9 m (outs m)) (V10 m (outs m)) 3 (by decide) (body_obligation5 (Vt9 m)) (fun _ _ => rfl) (fun _ _ => rfl)
  (fun _ => rfl) (fun _ => sep_symm) (fun _ => sep_symm) (fun c _ => Vt9_eq m c _) fun c => congrArg (Function.update (V9 m (outs m) c) _) (outs_10 m c)
def reg6 := mkReg m 6 launch6 (V11 m (outs m)) (V12 m (outs m)) 3 (by decide) (body_obligation6 (Vt11 m)) (fun _ _ => rfl) (fun _ _ => rfl)
  (fun _ => rfl) (fun _ => sep_symm) (fun _ => sep_symm) (fun c _ => Vt11_eq m c _) fun c => congrArg (Function.update (V11 m (outs m) c) _) (outs_12 m c)
end Regs

section Run

variable (m : (ℓ : Loc nD τ sig) → Buf (Elt F) ℓ)

set_option backward.isDefEq.respectTransparency.types false in

theorem run_gen (ρ : Dev nD → PrngReg) {Q : PUnit × MemSt nD τ sig (Elt F) → Prop}
    (hQ : ∀ s : MemSt nD τ sig (Elt F),
      (∀ c : Dev nD, ∀ b ∈ Pipeline.ucRefs τ sig, s.mem (((c : Thread nD τ)).1, b) = V13 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ noL noLv m ρ main
    (segs m (outs m) 𝒱₀ noL noLv (fun _ c => rest c) () (pdats m) (reg0 m) (reg1 m) (reg2 m) (reg3 m) (reg4 m) (reg5 m) (reg6 m))
    (fun c Q => by
      rewrite [main_chain c, Pipeline.Seg.run_eq_chain,
        show ((segs m (outs m) 𝒱₀ noL noLv (fun _ c => rest c) () (pdats m) (reg0 m) (reg1 m) (reg2 m) (reg3 m) (reg4 m) (reg5 m) (reg6 m)) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach noL noLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      unfold StableHlo.held
      iintro ⟨Hh, HSI⟩
      imodintro
      iapply (pointsTo_read_all (Pipeline.ucRefs τ sig) (fun b => (((c : Thread nD τ)).1, b)) (V13 m (outs m) c) s')
      isplitl [Hh] <;> iassumption)
    (hQ := hQ)

theorem result (ρ : Dev nD → PrngReg) :
    θ_run defs (onTc (τ := τ) (main (F := F))) ⟨m, fun _ => 0, ρ⟩ (fun r => ∀ c : Dev nD,
      r.2.mem ((c.tc : Thread nD τ).loc main_v48) = V13 m (outs m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_gen m ρ fun s h c =>
    ⟨h c _ (mem_uc main_v48 (by decide)),
      (h c _ (mem_uc main_arg0 (by decide))).trans (V13_main_arg0 m (outs m) c),
      (h c _ (mem_uc main_arg1 (by decide))).trans (V13_main_arg1 m (outs m) c),
      (h c _ (mem_uc main_arg2 (by decide))).trans (V13_main_arg2 m (outs m) c),
      (h c _ (mem_uc main_arg3 (by decide))).trans (V13_main_arg3 m (outs m) c),
      (h c _ (mem_uc main_arg4 (by decide))).trans (V13_main_arg4 m (outs m) c),
      (h c _ (mem_uc main_arg5 (by decide))).trans (V13_main_arg5 m (outs m) c),
      (h c _ (mem_uc main_arg6 (by decide))).trans (V13_main_arg6 m (outs m) c),
      (h c _ (mem_uc main_arg7 (by decide))).trans (V13_main_arg7 m (outs m) c),
      (h c _ (mem_uc main_arg8 (by decide))).trans (V13_main_arg8 m (outs m) c),
      (h c _ (mem_uc main_arg9 (by decide))).trans (V13_main_arg9 m (outs m) c),
      (h c _ (mem_uc main_arg10 (by decide))).trans (V13_main_arg10 m (outs m) c),
      (h c _ (mem_uc main_arg11 (by decide))).trans (V13_main_arg11 m (outs m) c),
      (h c _ (mem_uc main_arg12 (by decide))).trans (V13_main_arg12 m (outs m) c),
      (h c _ (mem_uc main_arg13 (by decide))).trans (V13_main_arg13 m (outs m) c)⟩

end Run

end Cert.KernelIdeal.Hand

end
-- ==== Proof.Ref.RunDefs.lean ====
import proofs.«163280_j13889924235715_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev c1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_v6 main_v7 rfl shapeCasts_S1x1024_S1x1x1024,
    reshape main_arg1 main_v8 rfl shapeCasts_S1x1x1024_S1x1024,
    reshape main_v7 main_v9 rfl shapeCasts_S1x1x1024_S1x1024 ]

abbrev c2 : List (HloOp τ sig (Elt F)) :=
  [ binary main_v9 main_v8 main_v10 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v11 ((transpose S2048x4096 [1, 0] · transposes_S4096x2048_S2048x4096_1_0) : (⟨S4096x2048, .f32⟩ : BufTy).Contents (Elt F) → (⟨S2048x4096, .f32⟩ : BufTy).Contents (Elt F)),
    binary main_v10 main_v11 main_v12 ((fun l r => Host.dotGeneral dot_S1x2048_S2048x4096_S1x4096_1_0_0_1_n_n none l r) : (⟨S1x2048, .f32⟩ : BufTy).Contents (Elt F) → (⟨S2048x4096, .f32⟩ : BufTy).Contents (Elt F) → (⟨S1x4096, .f32⟩ : BufTy).Contents (Elt F)),
    unary main_arg5 main_v13 (broadcastInDim S1x4096 ![1] bcast_S4096_S1x4096_1 : (⟨S4096, .f32⟩ : BufTy).Contents (Elt F) → (⟨S1x4096, .f32⟩ : BufTy).Contents (Elt F)),
    binary main_v12 main_v13 main_v14 (addf : (⟨S1x4096, .f32⟩ : BufTy).Contents (Elt F) → (⟨S1x4096, .f32⟩ : BufTy).Contents (Elt F) → (⟨S1x4096, .f32⟩ : BufTy).Contents (Elt F)),
    TRef.nullary (TRef.of (T := ⟨S_, .f32⟩) main_call0_cst) (constant S_ .f32 0xFF800000#32),
    TRef.binary (TRef.of (T := ⟨S1x4096, .f32⟩) main_v14) (TRef.of (T := ⟨S_, .f32⟩) main_call0_cst) (TRef.of (T := ⟨S1, .f32⟩) main_call0_v0) (fun x v => Host.reduce FloatOps.maximumf x v reducesTo_S1x4096_S1_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1, .f32⟩) main_call0_v1) (broadcastInDim S1 ![] bcast_S_S1),
    TRef.binary (TRef.of (T := ⟨S1, .f32⟩) main_call0_v1) (TRef.of (T := ⟨S1, .f32⟩) main_call0_v0) (TRef.of (T := ⟨S1, .f32⟩) main_call0_v2) maximumf,
    TRef.unary (TRef.of (T := ⟨S1, .f32⟩) main_call0_v2) (TRef.of (T := ⟨S1x1, .f32⟩) main_call0_v3) (broadcastInDim S1x1 ![0] bcast_S1_S1x1_0),
    TRef.unary (TRef.of (T := ⟨S1x1, .f32⟩) main_call0_v3) (TRef.of (T := ⟨S1x4096, .f32⟩) main_call0_v4) (broadcastInDim S1x4096 ![0, 1] bcast_S1x1_S1x4096_0_1),
    TRef.binary (TRef.of (T := ⟨S1x4096, .f32⟩) main_v14) (TRef.of (T := ⟨S1x4096, .f32⟩) main_call0_v4) (TRef.of (T := ⟨S1x4096, .f32⟩) main_call0_v5) subf,
    TRef.unary (TRef.of (T := ⟨S1x4096, .f32⟩) main_call0_v5) (TRef.of (T := ⟨S1x4096, .f32⟩) main_call0_v6) Host.exp,
    TRef.nullary (TRef.of (T := ⟨S_, .f32⟩) main_call0_cst_1) (constant S_ .f32 0x00000000#32),
    TRef.binary (TRef.of (T := ⟨S1x4096, .f32⟩) main_call0_v6) (TRef.of (T := ⟨S_, .f32⟩) main_call0_cst_1) (TRef.of (T := ⟨S1, .f32⟩) main_call0_v7) (fun x v => Host.reduceAdd x v reducesTo_S1x4096_S1_d1 h_S_),
    TRef.unary (TRef.of (T := ⟨S1, .f32⟩) main_call0_v7) (TRef.of (T := ⟨S1x1, .f32⟩) main_call0_v8) (broadcastInDim S1x1 ![0] bcast_S1_S1x1_0),
    TRef.unary (TRef.of (T := ⟨S1x1, .f32⟩) main_call0_v8) (TRef.of (T := ⟨S1x1, .f32⟩) main_call0_v9) Host.log,
    TRef.unary (TRef.of (T := ⟨S1x1, .f32⟩) main_call0_v9) (TRef.of (T := ⟨S1x4096, .f32⟩) main_call0_v10) (broadcastInDim S1x4096 ![0, 1] bcast_S1x1_S1x4096_0_1),
    TRef.binary (TRef.of (T := ⟨S1x4096, .f32⟩) main_call0_v5) (TRef.of (T := ⟨S1x4096, .f32⟩) main_call0_v10) (TRef.of (T := ⟨S1x4096, .f32⟩) main_v15) subf,
    binary main_v15 main_arg2 main_v16 ((fun l r => Host.dotGeneral dot_S1x4096_S4096x1024_S1x1024_1_0_0_1_n_n none l r) : (⟨S1x4096, .f32⟩ : BufTy).Contents (Elt F) → (⟨S4096x1024, .f32⟩ : BufTy).Contents (Elt F) → (⟨S1x1024, .f32⟩ : BufTy).Contents (Elt F)),
    reshape main_v7 main_v17 rfl shapeCasts_S1x1x1024_S1x1024 ]

abbrev c3 : List (HloOp τ sig (Elt F)) :=
  [ binary main_v17 main_v16 main_v18 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v19 ((transpose S2048x1024 [1, 0] · transposes_S1024x2048_S2048x1024_1_0) : (⟨S1024x2048, .f32⟩ : BufTy).Contents (Elt F) → (⟨S2048x1024, .f32⟩ : BufTy).Contents (Elt F)),
    binary main_v18 main_v19 main_v20 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v21 (broadcastInDim S1x1024 ![1] bcast_S1024_S1x1024_1 : (⟨S1024, .f32⟩ : BufTy).Contents (Elt F) → (⟨S1x1024, .f32⟩ : BufTy).Contents (Elt F)),
    binary main_v20 main_v21 main_v22 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x1024, .f32⟩) main_call1_v0) (broadcastInDim S1x1024 ![] bcast_S_S1x1024),
    TRef.binary (TRef.of (T := ⟨S1x1024, .f32⟩) main_v22) (TRef.of (T := ⟨S1x1024, .f32⟩) main_call1_v0) (TRef.of (T := ⟨S1x1024, .f32⟩) main_v23) maximumf,
    unary main_arg8 main_v24 ((transpose S1024x3072 [1, 0] · transposes_S3072x1024_S1024x3072_1_0) : (⟨S3072x1024, .f32⟩ : BufTy).Contents (Elt F) → (⟨S1024x3072, .f32⟩ : BufTy).Contents (Elt F)),
    binary main_v23 main_v24 main_v25 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v26 (broadcastInDim S1x3072 ![1] bcast_S3072_S1x3072_1 : (⟨S3072, .f32⟩ : BufTy).Contents (Elt F) → (⟨S1x3072, .f32⟩ : BufTy).Contents (Elt F)),
    binary main_v25 main_v26 main_v27 (addf : (⟨S1x3072, .f32⟩ : BufTy).Contents (Elt F) → (⟨S1x3072, .f32⟩ : BufTy).Contents (Elt F) → (⟨S1x3072, .f32⟩ : BufTy).Contents (Elt F)),
    unary main_arg9 main_v28 ((transpose S1024x3072 [1, 0] · transposes_S3072x1024_S1024x3072_1_0) : (⟨S3072x1024, .f32⟩ : BufTy).Contents (Elt F) → (⟨S1024x3072, .f32⟩ : BufTy).Contents (Elt F)),
    binary main_v8 main_v28 main_v29 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v30 (broadcastInDim S1x3072 ![1] bcast_S3072_S1x3072_1 : (⟨S3072, .f32⟩ : BufTy).Contents (Elt F) → (⟨S1x3072, .f32⟩ : BufTy).Contents (Elt F)),
    binary main_v29 main_v30 main_v31 (addf : (⟨S1x3072, .f32⟩ : BufTy).Contents (Elt F) → (⟨S1x3072, .f32⟩ : BufTy).Contents (Elt F) → (⟨S1x3072, .f32⟩ : BufTy).Contents (Elt F)) ]

abbrev c4 : List (HloOp τ sig (Elt F)) :=
  [ unary main_v27 main_v32 ((extractStridedSlice S1x1024 ![0, 0] · slices_S1x3072_S1x1024_0_0) : (⟨S1x3072, .f32⟩ : BufTy).Contents (Elt F) → (⟨S1x1024, .f32⟩ : BufTy).Contents (Elt F)),
    unary main_v27 main_v33 ((extractStridedSlice S1x1024 ![0, 1024] · slices_S1x3072_S1x1024_0_1024) : (⟨S1x3072, .f32⟩ : BufTy).Contents (Elt F) → (⟨S1x1024, .f32⟩ : BufTy).Contents (Elt F)),
    unary main_v27 main_v34 ((extractStridedSlice S1x1024 ![0, 2048] · slices_S1x3072_S1x1024_0_2048) : (⟨S1x3072, .f32⟩ : BufTy).Contents (Elt F) → (⟨S1x1024, .f32⟩ : BufTy).Contents (Elt F)),
    unary main_v31 main_v35 ((extractStridedSlice S1x1024 ![0, 0] · slices_S1x3072_S1x1024_0_0) : (⟨S1x3072, .f32⟩ : BufTy).Contents (Elt F) → (⟨S1x1024, .f32⟩ : BufTy).Contents (Elt F)),
    unary main_v31 main_v36 ((extractStridedSlice S1x1024 ![0, 1024] · slices_S1x3072_S1x1024_0_1024) : (⟨S1x3072, .f32⟩ : BufTy).Contents (Elt F) → (⟨S1x1024, .f32⟩ : BufTy).Contents (Elt F)),
    unary main_v31 main_v37 ((extractStridedSlice S1x1024 ![0, 2048] · slices_S1x3072_S1x1024_0_2048) : (⟨S1x3072, .f32⟩ : BufTy).Contents (Elt F) → (⟨S1x1024, .f32⟩ : BufTy).Contents (Elt F)),
    binary main_v32 main_v35 main_v38 (addf : (⟨S1x1024, .f32⟩ : BufTy).Contents (Elt F) → (⟨S1x1024, .f32⟩ : BufTy).Contents (Elt F) → (⟨S1x1024, .f32⟩ : BufTy).Contents (Elt F)),
    unary main_v38 main_v39 (Host.negf : (⟨S1x1024, .f32⟩ : BufTy).Contents (Elt F) → (⟨S1x1024, .f32⟩ : BufTy).Contents (Elt F)),
    unary main_v39 main_v40 (Host.exp : (⟨S1x1024, .f32⟩ : BufTy).Contents (Elt F) → (⟨S1x1024, .f32⟩ : BufTy).Contents (Elt F)),
    nullary main_cst (constant S_ .f32 0x3F800000#32),
    unary main_cst main_v41 (broadcastInDim S1x1024 ![] bcast_S_S1x1024 : (⟨S_, .f32⟩ : BufTy).Contents (Elt F) → (⟨S1x1024, .f32⟩ : BufTy).Contents (Elt F)),
    binary main_v41 main_v40 main_v42 (addf : (⟨S1x1024, .f32⟩ : BufTy).Contents (Elt F) → (⟨S1x1024, .f32⟩ : BufTy).Contents (Elt F) → (⟨S1x1024, .f32⟩ : BufTy).Contents (Elt F)),
    nullary main_cst_1 (constant S_ .f32 0x3F800000#32),
    unary main_cst_1 main_v43 (broadcastInDim S1x1024 ![] bcast_S_S1x1024 : (⟨S_, .f32⟩ : BufTy).Contents (Elt F) → (⟨S1x1024, .f32⟩ : BufTy).Contents (Elt F)),
    binary main_v43 main_v42 main_v44 (Host.divf : (⟨S1x1024, .f32⟩ : BufTy).Contents (Elt F) → (⟨S1x1024, .f32⟩ : BufTy).Contents (Elt F) → (⟨S1x1024, .f32⟩ : BufTy).Contents (Elt F)),
    binary main_v33 main_v36 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_2 (constant S_ .f32 0x3F800000#32),
    unary main_cst_2 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_3 (constant S_ .f32 0x3F800000#32),
    unary main_cst_3 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v44 main_v37 main_v52 (mulf : (⟨S1x1024, .f32⟩ : BufTy).Contents (Elt F) → (⟨S1x1024, .f32⟩ : BufTy).Contents (Elt F) → (⟨S1x1024, .f32⟩ : BufTy).Contents (Elt F)),
    binary main_v34 main_v52 main_v53 (addf : (⟨S1x1024, .f32⟩ : BufTy).Contents (Elt F) → (⟨S1x1024, .f32⟩ : BufTy).Contents (Elt F) → (⟨S1x1024, .f32⟩ : BufTy).Contents (Elt F)),
    unary main_v53 main_v54 (Host.tanh : (⟨S1x1024, .f32⟩ : BufTy).Contents (Elt F) → (⟨S1x1024, .f32⟩ : BufTy).Contents (Elt F)),
    nullary main_cst_4 (constant S_ .f32 0x3F800000#32),
    unary main_cst_4 main_v55 (broadcastInDim S1x1024 ![] bcast_S_S1x1024 : (⟨S_, .f32⟩ : BufTy).Contents (Elt F) → (⟨S1x1024, .f32⟩ : BufTy).Contents (Elt F)),
    binary main_v55 main_v51 main_v56 (subf : (⟨S1x1024, .f32⟩ : BufTy).Contents (Elt F) → (⟨S1x1024, .f32⟩ : BufTy).Contents (Elt F) → (⟨S1x1024, .f32⟩ : BufTy).Contents (Elt F)),
    binary main_v56 main_v54 main_v57 (mulf : (⟨S1x1024, .f32⟩ : BufTy).Contents (Elt F) → (⟨S1x1024, .f32⟩ : BufTy).Contents (Elt F) → (⟨S1x1024, .f32⟩ : BufTy).Contents (Elt F)),
    binary main_v51 main_v8 main_v58 (mulf : (⟨S1x1024, .f32⟩ : BufTy).Contents (Elt F) → (⟨S1x1024, .f32⟩ : BufTy).Contents (Elt F) → (⟨S1x1024, .f32⟩ : BufTy).Contents (Elt F)),
    binary main_v57 main_v58 main_v59 (addf : (⟨S1x1024, .f32⟩ : BufTy).Contents (Elt F) → (⟨S1x1024, .f32⟩ : BufTy).Contents (Elt F) → (⟨S1x1024, .f32⟩ : BufTy).Contents (Elt F)) ]

abbrev c5 : List (HloOp τ sig (Elt F)) :=
  [ unary main_arg12 main_v60 ((transpose S1024x50257 [1, 0] · transposes_S50257x1024_S1024x50257_1_0) : (⟨S50257x1024, .f32⟩ : BufTy).Contents (Elt F) → (⟨S1024x50257, .f32⟩ : BufTy).Contents (Elt F)),
    binary main_v59 main_v60 main_v61 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v62 (broadcastInDim S1x50257 ![1] bcast_S50257_S1x50257_1 : (⟨S50257, .f32⟩ : BufTy).Contents (Elt F) → (⟨S1x50257, .f32⟩ : BufTy).Contents (Elt F)),
    binary main_v61 main_v62 main_v63 (addf : (⟨S1x50257, .f32⟩ : BufTy).Contents (Elt F) → (⟨S1x50257, .f32⟩ : BufTy).Contents (Elt F) → (⟨S1x50257, .f32⟩ : BufTy).Contents (Elt F)) ]

abbrev ops : List (HloOp τ sig (Elt F)) := c1 ++ (c2 ++ (c3 ++ (c4 ++ c5)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., reshape_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub ..⟩

end Cert.ReferenceIdeal.ValueP

end
-- ==== Proof.Ref.ReadP.lean ====
import proofs.«163280_j13889924235715_1_alg».proof.Proof.Ref.RunDefs
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S1, .i32⟩ : BufTy).Contents (Elt F)) (x1 : (⟨S1x1x1024, .f32⟩ : BufTy).Contents (Elt F)) (x2 : (⟨S4096x1024, .f32⟩ : BufTy).Contents (Elt F)) (x3 : (⟨S50257x1024, .f32⟩ : BufTy).Contents (Elt F)) (x4 : (⟨S4096x2048, .f32⟩ : BufTy).Contents (Elt F)) (x5 : (⟨S4096, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))

def val_main_c : (⟨S_, .i32⟩ : BufTy).Contents (Elt F) :=
  constantI S_ 32 0#32
theorem val_main_c_apply (i : S_.Idx) :
    val_main_c (F := F) i = 0#32 := rfl

def val_main_v0 : (⟨S1, .i32⟩ : BufTy).Contents (Elt F) :=
  broadcastInDim S1 ![] bcast_S_S1 (val_main_c (F := F))
abbrev idx_main_v0 (i : S1.Idx) : S_.Idx := fun a => a.elim0
theorem val_main_v0_apply (i : S1.Idx) :
    val_main_v0 (F := F) i = val_main_c (F := F) (idx_main_v0 i) := by
  unfold val_main_v0
  generalize val_main_c (F := F) = y
  exact broadcastInDim_apply _ bcast_S_S1 y i (idx_main_v0 i) (fun a => a.elim0)

def val_main_v1 : (⟨S1, .i1⟩ : BufTy).Contents (Elt F) :=
  cmpi .slt (x0) (val_main_v0 (F := F))
theorem val_main_v1_apply (i : S1.Idx) :
    val_main_v1 (F := F) x0 i = IntOp.cmpi .slt (x0 i) (val_main_v0 (F := F) i) := rfl

def val_main_c_0 : (⟨S_, .i32⟩ : BufTy).Contents (Elt F) :=
  constantI S_ 32 50257#32
theorem val_main_c_0_apply (i : S_.Idx) :
    val_main_c_0 (F := F) i = 50257#32 := rfl

def val_main_v2 : (⟨S1, .i32⟩ : BufTy).Contents (Elt F) :=
  broadcastInDim S1 ![] bcast_S_S1 (val_main_c_0 (F := F))
abbrev idx_main_v2 (i : S1.Idx) : S_.Idx := fun a => a.elim0
theorem val_main_v2_apply (i : S1.Idx) :
    val_main_v2 (F := F) i = val_main_c_0 (F := F) (idx_main_v2 i) := by
  unfold val_main_v2
  generalize val_main_c_0 (F := F) = y
  exact broadcastInDim_apply _ bcast_S_S1 y i (idx_main_v2 i) (fun a => a.elim0)

def val_main_v3 : (⟨S1, .i32⟩ : BufTy).Contents (Elt F) :=
  addi (x0) (val_main_v2 (F := F))
theorem val_main_v3_apply (i : S1.Idx) :
    val_main_v3 (F := F) x0 i = IntOp.addi (x0 i) (val_main_v2 (F := F) i) := rfl

def val_main_v4 : (⟨S1, .i32⟩ : BufTy).Contents (Elt F) :=
  select (val_main_v1 (F := F) x0) (val_main_v3 (F := F) x0) (x0)
theorem val_main_v4_apply (i : S1.Idx) :
    val_main_v4 (F := F) x0 i = Scalar.select (val_main_v1 (F := F) x0 i) (val_main_v3 (F := F) x0 i) (x0 i) := rfl

def val_main_v5 : (⟨S1x1, .i32⟩ : BufTy).Contents (Elt F) :=
  broadcastInDim S1x1 ![0] bcast_S1_S1x1_0 (val_main_v4 (F := F) x0)
abbrev idx_main_v5 (i : S1x1.Idx) : S1.Idx := fun a => match a with
  | ⟨0, _⟩ => ⟨0, Nat.one_pos⟩
theorem val_main_v5_apply (i : S1x1.Idx) :
    val_main_v5 (F := F) x0 i = val_main_v4 (F := F) x0 (idx_main_v5 i) := by
  unfold val_main_v5
  generalize val_main_v4 (F := F) x0 = y
  exact broadcastInDim_apply _ bcast_S1_S1x1_0 y i (idx_main_v5 i) (fun a => match a with
    | ⟨0, _⟩ => by show 0 = if (1 : Nat) = 1 then 0 else (i 0).val; rw [if_pos rfl])

def val_main_v6 : (⟨S1x1024, .f32⟩ : BufTy).Contents (Elt F) :=
  Host.gather gather_S50257x1024_S1x1_S1x1024_1_0_n_n_0_1_11024 (x3) (val_main_v5 (F := F) x0)

def val_main_v7 : (⟨S1x1x1024, .f32⟩ : BufTy).Contents (Elt F) :=
  shapeCast _ (val_main_v6 (F := F) x0 x3) shapeCasts_S1x1024_S1x1x1024
abbrev idx_main_v7 (i : S1x1x1024.Idx) : S1x1024.Idx := fun a => match a with
  | ⟨0, _⟩ => ⟨0, Nat.one_pos⟩
  | ⟨1, _⟩ => ⟨(((i 0).val * 1 + (i 1).val) * 1024 + (i 2).val) % 1024, by have h0 : (i 0).val < 1 := (i 0).isLt; have h1 : (i 1).val < 1 := (i 1).isLt; have h2 : (i 2).val < 1024 := (i 2).isLt; show (((i 0).val * 1 + (i 1).val) * 1024 + (i 2).val) % 1024 < 1024; omega⟩
theorem val_main_v7_apply (i : S1x1x1024.Idx) :
    val_main_v7 (F := F) x0 x3 i = val_main_v6 (F := F) x0 x3 (idx_main_v7 i) := by
  unfold val_main_v7
  generalize val_main_v6 (F := F) x0 x3 = y
  exact shapeCast_apply y shapeCasts_S1x1024_S1x1x1024 i (idx_main_v7 i)
    (by rewrite [Shape.rowMajor_val_two, Shape.rowMajor_val_three]; have h0 : (i 0).val < 1 := (i 0).isLt; have h1 : (i 1).val < 1 := (i 1).isLt; have h2 : (i 2).val < 1024 := (i 2).isLt; show 0 * 1024 + (((i 0).val * 1 + (i 1).val) * 1024 + (i 2).val) % 1024 = ((i 0).val * 1 + (i 1).val) * 1024 + (i 2).val; omega)

def val_main_v8 : (⟨S1x1024, .f32⟩ : BufTy).Contents (Elt F) :=
  shapeCast _ (x1) shapeCasts_S1x1x1024_S1x1024
abbrev idx_main_v8 (i : S1x1024.Idx) : S1x1x1024.Idx := fun a => match a with
  | ⟨0, _⟩ => ⟨0, Nat.one_pos⟩
  | ⟨1, _⟩ => ⟨0, Nat.one_pos⟩
  | ⟨2, _⟩ => ⟨((i 0).val * 1024 + (i 1).val) % 1024, by have h0 : (i 0).val < 1 := (i 0).isLt; have h1 : (i 1).val < 1024 := (i 1).isLt; show ((i 0).val * 1024 + (i 1).val) % 1024 < 1024; omega⟩
theorem val_main_v8_apply (i : S1x1024.Idx) :
    val_main_v8 (F := F) x1 i = x1 (idx_main_v8 i) := by
  unfold val_main_v8
  exact shapeCast_apply x1 shapeCasts_S1x1x1024_S1x1024 i (idx_main_v8 i)
    (by rewrite [Shape.rowMajor_val_three, Shape.rowMajor_val_two]; have h0 : (i 0).val < 1 := (i 0).isLt; have h1 : (i 1).val < 1024 := (i 1).isLt; show (0 * 1 + 0) * 1024 + ((i 0).val * 1024 + (i 1).val) % 1024 = (i 0).val * 1024 + (i 1).val; omega)

def val_main_v9 : (⟨S1x1024, .f32⟩ : BufTy).Contents (Elt F) :=
  shapeCast _ (val_main_v7 (F := F) x0 x3) shapeCasts_S1x1x1024_S1x1024
abbrev idx_main_v9 (i : S1x1024.Idx) : S1x1x1024.Idx := fun a => match a with
  | ⟨0, _⟩ => ⟨0, Nat.one_pos⟩
  | ⟨1, _⟩ => ⟨0, Nat.one_pos⟩
  | ⟨2, _⟩ => ⟨((i 0).val * 1024 + (i 1).val) % 1024, by have h0 : (i 0).val < 1 := (i 0).isLt; have h1 : (i 1).val < 1024 := (i 1).isLt; show ((i 0).val * 1024 + (i 1).val) % 1024 < 1024; omega⟩
theorem val_main_v9_apply (i : S1x1024.Idx) :
    val_main_v9 (F := F) x0 x3 i = val_main_v7 (F := F) x0 x3 (idx_main_v9 i) := by
  unfold val_main_v9
  generalize val_main_v7 (F := F) x0 x3 = y
  exact shapeCast_apply y shapeCasts_S1x1x1024_S1x1024 i (idx_main_v9 i)
    (by rewrite [Shape.rowMajor_val_three, Shape.rowMajor_val_two]; have h0 : (i 0).val < 1 := (i 0).isLt; have h1 : (i 1).val < 1024 := (i 1).isLt; show (0 * 1 + 0) * 1024 + ((i 0).val * 1024 + (i 1).val) % 1024 = (i 0).val * 1024 + (i 1).val; omega)

def val_main_v10 : (⟨S1x2048, .f32⟩ : BufTy).Contents (Elt F) :=
  concatenate S1x2048 1 [⟨S1x1024, (val_main_v9 (F := F) x0 x3)⟩, ⟨S1x1024, (val_main_v8 (F := F) x1)⟩] concatenates_S1x1024_S1x1024_S1x2048_d1

def val_main_v11 : (⟨S2048x4096, .f32⟩ : BufTy).Contents (Elt F) :=
  transpose S2048x4096 [1, 0] (x4) transposes_S4096x2048_S2048x4096_1_0
abbrev idx_main_v11 (i : S2048x4096.Idx) : S4096x2048.Idx := fun a => match a with
  | ⟨0, _⟩ => ⟨(i 1).val, (i 1).isLt⟩
  | ⟨1, _⟩ => ⟨(i 0).val, (i 0).isLt⟩
theorem val_main_v11_apply (i : S2048x4096.Idx) :
    val_main_v11 (F := F) x4 i = x4 (idx_main_v11 i) := by
  unfold val_main_v11
  exact transpose_apply [1, 0] x4 transposes_S4096x2048_S2048x4096_1_0 i (idx_main_v11 i) (fun b => match b with
    | ⟨0, _⟩ => rfl
    | ⟨1, _⟩ => rfl)

def val_main_v12 : (⟨S1x4096, .f32⟩ : BufTy).Contents (Elt F) :=
  Host.dotGeneral dot_S1x2048_S2048x4096_S1x4096_1_0_0_1_n_n none (val_main_v10 (F := F) x0 x1 x3) (val_main_v11 (F := F) x4)
def val_main_v13 : (⟨S1x4096, .f32⟩ : BufTy).Contents (Elt F) :=
  broadcastInDim S1x4096 ![1] bcast_S4096_S1x4096_1 (x5)
abbrev idx_main_v13 (i : S1x4096.Idx) : S4096.Idx := fun a => match a with
  | ⟨0, _⟩ => ⟨(i 1).val, (i 1).isLt⟩
theorem val_main_v13_apply (i : S1x4096.Idx) :
    val_main_v13 (F := F) x5 i = x5 (idx_main_v13 i) := by
  unfold val_main_v13
  exact broadcastInDim_apply _ bcast_S4096_S1x4096_1 x5 i (idx_main_v13 i) (fun a => match a with
    | ⟨0, _⟩ => by show (i 1).val = if (4096 : Nat) = 1 then 0 else (i 1).val; rw [if_neg (by decide)])

def val_main_v14 : (⟨S1x4096, .f32⟩ : BufTy).Contents (Elt F) :=
  addf (val_main_v12 (F := F) x0 x1 x3 x4) (val_main_v13 (F := F) x5)
theorem val_main_v14_apply (i : S1x4096.Idx) :
    val_main_v14 (F := F) x0 x1 x3 x4 x5 i = FloatOps.addf (val_main_v12 (F := F) x0 x1 x3 x4 i) (val_main_v13 (F := F) x5 i) := rfl

def val_main_call0_cst : (⟨S_, .f32⟩ : BufTy).Contents (Elt F) :=
  constant S_ .f32 0xFF800000#32
def val_main_call0_v0 : (⟨S1, .f32⟩ : BufTy).Contents (Elt F) :=
  Host.reduce FloatOps.maximumf (val_main_v14 (F := F) x0 x1 x3 x4 x5) (val_main_call0_cst (F := F)) reducesTo_S1x4096_S1_d1 h_S_

def val_main_call0_cst_0 : (⟨S_, .f32⟩ : BufTy).Contents (Elt F) :=
  constant S_ .f32 0xFF800000#32
def val_main_call0_v1 : (⟨S1, .f32⟩ : BufTy).Contents (Elt F) :=
  broadcastInDim S1 ![] bcast_S_S1 (val_main_call0_cst_0 (F := F))
def val_main_call0_v2 : (⟨S1, .f32⟩ : BufTy).Contents (Elt F) :=
  maximumf (val_main_call0_v1 (F := F)) (val_main_call0_v0 (F := F) x0 x1 x3 x4 x5)
def val_main_call0_v3 : (⟨S1x1, .f32⟩ : BufTy).Contents (Elt F) :=
  broadcastInDim S1x1 ![0] bcast_S1_S1x1_0 (val_main_call0_v2 (F := F) x0 x1 x3 x4 x5)
def val_main_call0_v4 : (⟨S1x4096, .f32⟩ : BufTy).Contents (Elt F) :=
  broadcastInDim S1x4096 ![0, 1] bcast_S1x1_S1x4096_0_1 (val_main_call0_v3 (F := F) x0 x1 x3 x4 x5)
def val_main_call0_v5 : (⟨S1x4096, .f32⟩ : BufTy).Contents (Elt F) :=
  subf (val_main_v14 (F := F) x0 x1 x3 x4 x5) (val_main_call0_v4 (F := F) x0 x1 x3 x4 x5)
def val_main_call0_v6 : (⟨S1x4096, .f32⟩ : BufTy).Contents (Elt F) :=
  Host.exp (val_main_call0_v5 (F := F) x0 x1 x3 x4 x5)
def val_main_call0_cst_1 : (⟨S_, .f32⟩ : BufTy).Contents (Elt F) :=
  constant S_ .f32 0x00000000#32
def val_main_call0_v7 : (⟨S1, .f32⟩ : BufTy).Contents (Elt F) :=
  Host.reduceAdd (val_main_call0_v6 (F := F) x0 x1 x3 x4 x5) (val_main_call0_cst_1 (F := F)) reducesTo_S1x4096_S1_d1 h_S_
def val_main_call0_v8 : (⟨S1x1, .f32⟩ : BufTy).Contents (Elt F) :=
  broadcastInDim S1x1 ![0] bcast_S1_S1x1_0 (val_main_call0_v7 (F := F) x0 x1 x3 x4 x5)
def val_main_call0_v9 : (⟨S1x1, .f32⟩ : BufTy).Contents (Elt F) :=
  Host.log (val_main_call0_v8 (F := F) x0 x1 x3 x4 x5)
def val_main_call0_v10 : (⟨S1x4096, .f32⟩ : BufTy).Contents (Elt F) :=
  broadcastInDim S1x4096 ![0, 1] bcast_S1x1_S1x4096_0_1 (val_main_call0_v9 (F := F) x0 x1 x3 x4 x5)
def val_main_v15 : (⟨S1x4096, .f32⟩ : BufTy).Contents (Elt F) :=
  subf (val_main_call0_v5 (F := F) x0 x1 x3 x4 x5) (val_main_call0_v10 (F := F) x0 x1 x3 x4 x5)
def val_main_v16 : (⟨S1x1024, .f32⟩ : BufTy).Contents (Elt F) :=
  Host.dotGeneral dot_S1x4096_S4096x1024_S1x1024_1_0_0_1_n_n none (val_main_v15 (F := F) x0 x1 x3 x4 x5) (x2)
def val_main_v17 : (⟨S1x1024, .f32⟩ : BufTy).Contents (Elt F) :=
  shapeCast _ (val_main_v7 (F := F) x0 x3) shapeCasts_S1x1x1024_S1x1024
abbrev idx_main_v17 (i : S1x1024.Idx) : S1x1x1024.Idx := fun a => match a with
  | ⟨0, _⟩ => ⟨0, Nat.one_pos⟩
  | ⟨1, _⟩ => ⟨0, Nat.one_pos⟩
  | ⟨2, _⟩ => ⟨((i 0).val * 1024 + (i 1).val) % 1024, by have h0 : (i 0).val < 1 := (i 0).isLt; have h1 : (i 1).val < 1024 := (i 1).isLt; show ((i 0).val * 1024 + (i 1).val) % 1024 < 1024; omega⟩
theorem val_main_v17_apply (i : S1x1024.Idx) :
    val_main_v17 (F := F) x0 x3 i = val_main_v7 (F := F) x0 x3 (idx_main_v17 i) := by
  unfold val_main_v17
  generalize val_main_v7 (F := F) x0 x3 = y
  exact shapeCast_apply y shapeCasts_S1x1x1024_S1x1024 i (idx_main_v17 i)
    (by rewrite [Shape.rowMajor_val_three, Shape.rowMajor_val_two]; have h0 : (i 0).val < 1 := (i 0).isLt; have h1 : (i 1).val < 1024 := (i 1).isLt; show (0 * 1 + 0) * 1024 + ((i 0).val * 1024 + (i 1).val) % 1024 = (i 0).val * 1024 + (i 1).val; omega)

def val_main_v18 : (⟨S1x2048, .f32⟩ : BufTy).Contents (Elt F) :=
  concatenate S1x2048 1 [⟨S1x1024, (val_main_v17 (F := F) x0 x3)⟩, ⟨S1x1024, (val_main_v16 (F := F) x0 x1 x2 x3 x4 x5)⟩] concatenates_S1x1024_S1x1024_S1x2048_d1

def val_main_v19 : (⟨S2048x1024, .f32⟩ : BufTy).Contents (Elt F) :=
  transpose S2048x1024 [1, 0] (x6) transposes_S1024x2048_S2048x1024_1_0
abbrev idx_main_v19 (i : S2048x1024.Idx) : S1024x2048.Idx := fun a => match a with
  | ⟨0, _⟩ => ⟨(i 1).val, (i 1).isLt⟩
  | ⟨1, _⟩ => ⟨(i 0).val, (i 0).isLt⟩
theorem val_main_v19_apply (i : S2048x1024.Idx) :
    val_main_v19 (F := F) x6 i = x6 (idx_main_v19 i) := by
  unfold val_main_v19
  exact transpose_apply [1, 0] x6 transposes_S1024x2048_S2048x1024_1_0 i (idx_main_v19 i) (fun b => match b with
    | ⟨0, _⟩ => rfl
    | ⟨1, _⟩ => rfl)

def val_main_v20 : (⟨S1x1024, .f32⟩ : BufTy).Contents (Elt F) :=
  Host.dotGeneral dot_S1x2048_S2048x1024_S1x1024_1_0_0_1_n_n none (val_main_v18 (F := F) x0 x1 x2 x3 x4 x5) (val_main_v19 (F := F) x6)
def val_main_v21 : (⟨S1x1024, .f32⟩ : BufTy).Contents (Elt F) :=
  broadcastInDim S1x1024 ![1] bcast_S1024_S1x1024_1 (x7)
abbrev idx_main_v21 (i : S1x1024.Idx) : S1024.Idx := fun a => match a with
  | ⟨0, _⟩ => ⟨(i 1).val, (i 1).isLt⟩
theorem val_main_v21_apply (i : S1x1024.Idx) :
    val_main_v21 (F := F) x7 i = x7 (idx_main_v21 i) := by
  unfold val_main_v21
  exact broadcastInDim_apply _ bcast_S1024_S1x1024_1 x7 i (idx_main_v21 i) (fun a => match a with
    | ⟨0, _⟩ => by show (i 1).val = if (1024 : Nat) = 1 then 0 else (i 1).val; rw [if_neg (by decide)])

def val_main_v22 : (⟨S1x1024, .f32⟩ : BufTy).Contents (Elt F) :=
  addf (val_main_v20 (F := F) x0 x1 x2 x3 x4 x5 x6) (val_main_v21 (F := F) x7)
theorem val_main_v22_apply (i : S1x1024.Idx) :
    val_main_v22 (F := F) x0 x1 x2 x3 x4 x5 x6 x7 i = FloatOps.addf (val_main_v20 (F := F) x0 x1 x2 x3 x4 x5 x6 i) (val_main_v21 (F := F) x7 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S1x1024, .f32⟩ : BufTy).Contents (Elt F) :=
  broadcastInDim S1x1024 ![] bcast_S_S1x1024 (val_main_call1_cst (F := F))
abbrev idx_main_call1_v0 (i : S1x1024.Idx) : S_.Idx := fun a => a.elim0
theorem val_main_call1_v0_apply (i : S1x1024.Idx) :
    val_main_call1_v0 (F := F) i = val_main_call1_cst (F := F) (idx_main_call1_v0 i) := by
  unfold val_main_call1_v0
  generalize val_main_call1_cst (F := F) = y
  exact broadcastInDim_apply _ bcast_S_S1x1024 y i (idx_main_call1_v0 i) (fun a => a.elim0)

def val_main_v23 : (⟨S1x1024, .f32⟩ : BufTy).Contents (Elt F) :=
  maximumf (val_main_v22 (F := F) x0 x1 x2 x3 x4 x5 x6 x7) (val_main_call1_v0 (F := F))
def val_main_v24 : (⟨S1024x3072, .f32⟩ : BufTy).Contents (Elt F) :=
  transpose S1024x3072 [1, 0] (x8) transposes_S3072x1024_S1024x3072_1_0
abbrev idx_main_v24 (i : S1024x3072.Idx) : S3072x1024.Idx := fun a => match a with
  | ⟨0, _⟩ => ⟨(i 1).val, (i 1).isLt⟩
  | ⟨1, _⟩ => ⟨(i 0).val, (i 0).isLt⟩
theorem val_main_v24_apply (i : S1024x3072.Idx) :
    val_main_v24 (F := F) x8 i = x8 (idx_main_v24 i) := by
  unfold val_main_v24
  exact transpose_apply [1, 0] x8 transposes_S3072x1024_S1024x3072_1_0 i (idx_main_v24 i) (fun b => match b with
    | ⟨0, _⟩ => rfl
    | ⟨1, _⟩ => rfl)

def val_main_v25 : (⟨S1x3072, .f32⟩ : BufTy).Contents (Elt F) :=
  Host.dotGeneral dot_S1x1024_S1024x3072_S1x3072_1_0_0_1_n_n none (val_main_v23 (F := F) x0 x1 x2 x3 x4 x5 x6 x7) (val_main_v24 (F := F) x8)
def val_main_v26 : (⟨S1x3072, .f32⟩ : BufTy).Contents (Elt F) :=
  broadcastInDim S1x3072 ![1] bcast_S3072_S1x3072_1 (x10)
abbrev idx_main_v26 (i : S1x3072.Idx) : S3072.Idx := fun a => match a with
  | ⟨0, _⟩ => ⟨(i 1).val, (i 1).isLt⟩
theorem val_main_v26_apply (i : S1x3072.Idx) :
    val_main_v26 (F := F) x10 i = x10 (idx_main_v26 i) := by
  unfold val_main_v26
  exact broadcastInDim_apply _ bcast_S3072_S1x3072_1 x10 i (idx_main_v26 i) (fun a => match a with
    | ⟨0, _⟩ => by show (i 1).val = if (3072 : Nat) = 1 then 0 else (i 1).val; rw [if_neg (by decide)])

def val_main_v27 : (⟨S1x3072, .f32⟩ : BufTy).Contents (Elt F) :=
  addf (val_main_v25 (F := F) x0 x1 x2 x3 x4 x5 x6 x7 x8) (val_main_v26 (F := F) x10)
theorem val_main_v27_apply (i : S1x3072.Idx) :
    val_main_v27 (F := F) x0 x1 x2 x3 x4 x5 x6 x7 x8 x10 i = FloatOps.addf (val_main_v25 (F := F) x0 x1 x2 x3 x4 x5 x6 x7 x8 i) (val_main_v26 (F := F) x10 i) := rfl

def val_main_v28 : (⟨S1024x3072, .f32⟩ : BufTy).Contents (Elt F) :=
  transpose S1024x3072 [1, 0] (x9) transposes_S3072x1024_S1024x3072_1_0
abbrev idx_main_v28 (i : S1024x3072.Idx) : S3072x1024.Idx := fun a => match a with
  | ⟨0, _⟩ => ⟨(i 1).val, (i 1).isLt⟩
  | ⟨1, _⟩ => ⟨(i 0).val, (i 0).isLt⟩
theorem val_main_v28_apply (i : S1024x3072.Idx) :
    val_main_v28 (F := F) x9 i = x9 (idx_main_v28 i) := by
  unfold val_main_v28
  exact transpose_apply [1, 0] x9 transposes_S3072x1024_S1024x3072_1_0 i (idx_main_v28 i) (fun b => match b with
    | ⟨0, _⟩ => rfl
    | ⟨1, _⟩ => rfl)

def val_main_v29 : (⟨S1x3072, .f32⟩ : BufTy).Contents (Elt F) :=
  Host.dotGeneral dot_S1x1024_S1024x3072_S1x3072_1_0_0_1_n_n none (val_main_v8 (F := F) x1) (val_main_v28 (F := F) x9)
def val_main_v30 : (⟨S1x3072, .f32⟩ : BufTy).Contents (Elt F) :=
  broadcastInDim S1x3072 ![1] bcast_S3072_S1x3072_1 (x11)
abbrev idx_main_v30 (i : S1x3072.Idx) : S3072.Idx := fun a => match a with
  | ⟨0, _⟩ => ⟨(i 1).val, (i 1).isLt⟩
theorem val_main_v30_apply (i : S1x3072.Idx) :
    val_main_v30 (F := F) x11 i = x11 (idx_main_v30 i) := by
  unfold val_main_v30
  exact broadcastInDim_apply _ bcast_S3072_S1x3072_1 x11 i (idx_main_v30 i) (fun a => match a with
    | ⟨0, _⟩ => by show (i 1).val = if (3072 : Nat) = 1 then 0 else (i 1).val; rw [if_neg (by decide)])

def val_main_v31 : (⟨S1x3072, .f32⟩ : BufTy).Contents (Elt F) :=
  addf (val_main_v29 (F := F) x1 x9) (val_main_v30 (F := F) x11)
theorem val_main_v31_apply (i : S1x3072.Idx) :
    val_main_v31 (F := F) x1 x9 x11 i = FloatOps.addf (val_main_v29 (F := F) x1 x9 i) (val_main_v30 (F := F) x11 i) := rfl

def val_main_v32 : (⟨S1x1024, .f32⟩ : BufTy).Contents (Elt F) :=
  extractStridedSlice S1x1024 ![0, 0] (val_main_v27 (F := F) x0 x1 x2 x3 x4 x5 x6 x7 x8 x10) slices_S1x3072_S1x1024_0_0
def val_main_v33 : (⟨S1x1024, .f32⟩ : BufTy).Contents (Elt F) :=
  extractStridedSlice S1x1024 ![0, 1024] (val_main_v27 (F := F) x0 x1 x2 x3 x4 x5 x6 x7 x8 x10) slices_S1x3072_S1x1024_0_1024
def val_main_v34 : (⟨S1x1024, .f32⟩ : BufTy).Contents (Elt F) :=
  extractStridedSlice S1x1024 ![0, 2048] (val_main_v27 (F := F) x0 x1 x2 x3 x4 x5 x6 x7 x8 x10) slices_S1x3072_S1x1024_0_2048
def val_main_v35 : (⟨S1x1024, .f32⟩ : BufTy).Contents (Elt F) :=
  extractStridedSlice S1x1024 ![0, 0] (val_main_v31 (F := F) x1 x9 x11) slices_S1x3072_S1x1024_0_0
def val_main_v36 : (⟨S1x1024, .f32⟩ : BufTy).Contents (Elt F) :=
  extractStridedSlice S1x1024 ![0, 1024] (val_main_v31 (F := F) x1 x9 x11) slices_S1x3072_S1x1024_0_1024
def val_main_v37 : (⟨S1x1024, .f32⟩ : BufTy).Contents (Elt F) :=
  extractStridedSlice S1x1024 ![0, 2048] (val_main_v31 (F := F) x1 x9 x11) slices_S1x3072_S1x1024_0_2048
def val_main_v38 : (⟨S1x1024, .f32⟩ : BufTy).Contents (Elt F) :=
  addf (val_main_v32 (F := F) x0 x1 x2 x3 x4 x5 x6 x7 x8 x10) (val_main_v35 (F := F) x1 x9 x11)
def val_main_v39 : (⟨S1x1024, .f32⟩ : BufTy).Contents (Elt F) :=
  Host.negf (val_main_v38 (F := F) x0 x1 x2 x3 x4 x5 x6 x7 x8 x9 x10 x11)
def val_main_v40 : (⟨S1x1024, .f32⟩ : BufTy).Contents (Elt F) :=
  Host.exp (val_main_v39 (F := F) x0 x1 x2 x3 x4 x5 x6 x7 x8 x9 x10 x11)
def val_main_cst : (⟨S_, .f32⟩ : BufTy).Contents (Elt F) :=
  constant S_ .f32 0x3F800000#32
def val_main_v41 : (⟨S1x1024, .f32⟩ : BufTy).Contents (Elt F) :=
  broadcastInDim S1x1024 ![] bcast_S_S1x1024 (val_main_cst (F := F))
def val_main_v42 : (⟨S1x1024, .f32⟩ : BufTy).Contents (Elt F) :=
  addf (val_main_v41 (F := F)) (val_main_v40 (F := F) x0 x1 x2 x3 x4 x5 x6 x7 x8 x9 x10 x11)
def val_main_cst_1 : (⟨S_, .f32⟩ : BufTy).Contents (Elt F) :=
  constant S_ .f32 0x3F800000#32
def val_main_v43 : (⟨S1x1024, .f32⟩ : BufTy).Contents (Elt F) :=
  broadcastInDim S1x1024 ![] bcast_S_S1x1024 (val_main_cst_1 (F := F))
def val_main_v44 : (⟨S1x1024, .f32⟩ : BufTy).Contents (Elt F) :=
  Host.divf (val_main_v43 (F := F)) (val_main_v42 (F := F) x0 x1 x2 x3 x4 x5 x6 x7 x8 x9 x10 x11)
def val_main_v45 : (⟨S1x1024, .f32⟩ : BufTy).Contents (Elt F) :=
  addf (val_main_v33 (F := F) x0 x1 x2 x3 x4 x5 x6 x7 x8 x10) (val_main_v36 (F := F) x1 x9 x11)
def val_main_v46 : (⟨S1x1024, .f32⟩ : BufTy).Contents (Elt F) :=
  Host.negf (val_main_v45 (F := F) x0 x1 x2 x3 x4 x5 x6 x7 x8 x9 x10 x11)
def val_main_v47 : (⟨S1x1024, .f32⟩ : BufTy).Contents (Elt F) :=
  Host.exp (val_main_v46 (F := F) x0 x1 x2 x3 x4 x5 x6 x7 x8 x9 x10 x11)
def val_main_cst_2 : (⟨S_, .f32⟩ : BufTy).Contents (Elt F) :=
  constant S_ .f32 0x3F800000#32
def val_main_v48 : (⟨S1x1024, .f32⟩ : BufTy).Contents (Elt F) :=
  broadcastInDim S1x1024 ![] bcast_S_S1x1024 (val_main_cst_2 (F := F))
def val_main_v49 : (⟨S1x1024, .f32⟩ : BufTy).Contents (Elt F) :=
  addf (val_main_v48 (F := F)) (val_main_v47 (F := F) x0 x1 x2 x3 x4 x5 x6 x7 x8 x9 x10 x11)
def val_main_cst_3 : (⟨S_, .f32⟩ : BufTy).Contents (Elt F) :=
  constant S_ .f32 0x3F800000#32
def val_main_v50 : (⟨S1x1024, .f32⟩ : BufTy).Contents (Elt F) :=
  broadcastInDim S1x1024 ![] bcast_S_S1x1024 (val_main_cst_3 (F := F))
def val_main_v51 : (⟨S1x1024, .f32⟩ : BufTy).Contents (Elt F) :=
  Host.divf (val_main_v50 (F := F)) (val_main_v49 (F := F) x0 x1 x2 x3 x4 x5 x6 x7 x8 x9 x10 x11)
def val_main_v52 : (⟨S1x1024, .f32⟩ : BufTy).Contents (Elt F) :=
  mulf (val_main_v44 (F := F) x0 x1 x2 x3 x4 x5 x6 x7 x8 x9 x10 x11) (val_main_v37 (F := F) x1 x9 x11)
def val_main_v53 : (⟨S1x1024, .f32⟩ : BufTy).Contents (Elt F) :=
  addf (val_main_v34 (F := F) x0 x1 x2 x3 x4 x5 x6 x7 x8 x10) (val_main_v52 (F := F) x0 x1 x2 x3 x4 x5 x6 x7 x8 x9 x10 x11)
def val_main_v54 : (⟨S1x1024, .f32⟩ : BufTy).Contents (Elt F) :=
  Host.tanh (val_main_v53 (F := F) x0 x1 x2 x3 x4 x5 x6 x7 x8 x9 x10 x11)
def val_main_cst_4 : (⟨S_, .f32⟩ : BufTy).Contents (Elt F) :=
  constant S_ .f32 0x3F800000#32
def val_main_v55 : (⟨S1x1024, .f32⟩ : BufTy).Contents (Elt F) :=
  broadcastInDim S1x1024 ![] bcast_S_S1x1024 (val_main_cst_4 (F := F))
def val_main_v56 : (⟨S1x1024, .f32⟩ : BufTy).Contents (Elt F) :=
  subf (val_main_v55 (F := F)) (val_main_v51 (F := F) x0 x1 x2 x3 x4 x5 x6 x7 x8 x9 x10 x11)
def val_main_v57 : (⟨S1x1024, .f32⟩ : BufTy).Contents (Elt F) :=
  mulf (val_main_v56 (F := F) x0 x1 x2 x3 x4 x5 x6 x7 x8 x9 x10 x11) (val_main_v54 (F := F) x0 x1 x2 x3 x4 x5 x6 x7 x8 x9 x10 x11)
def val_main_v58 : (⟨S1x1024, .f32⟩ : BufTy).Contents (Elt F) :=
  mulf (val_main_v51 (F := F) x0 x1 x2 x3 x4 x5 x6 x7 x8 x9 x10 x11) (val_main_v8 (F := F) x1)
def val_main_v59 : (⟨S1x1024, .f32⟩ : BufTy).Contents (Elt F) :=
  addf (val_main_v57 (F := F) x0 x1 x2 x3 x4 x5 x6 x7 x8 x9 x10 x11) (val_main_v58 (F := F) x0 x1 x2 x3 x4 x5 x6 x7 x8 x9 x10 x11)
def val_main_v60 : (⟨S1024x50257, .f32⟩ : BufTy).Contents (Elt F) :=
  transpose S1024x50257 [1, 0] (x12) transposes_S50257x1024_S1024x50257_1_0
abbrev idx_main_v60 (i : S1024x50257.Idx) : S50257x1024.Idx := fun a => match a with
  | ⟨0, _⟩ => ⟨(i 1).val, (i 1).isLt⟩
  | ⟨1, _⟩ => ⟨(i 0).val, (i 0).isLt⟩
theorem val_main_v60_apply (i : S1024x50257.Idx) :
    val_main_v60 (F := F) x12 i = x12 (idx_main_v60 i) := by
  unfold val_main_v60
  exact transpose_apply [1, 0] x12 transposes_S50257x1024_S1024x50257_1_0 i (idx_main_v60 i) (fun b => match b with
    | ⟨0, _⟩ => rfl
    | ⟨1, _⟩ => rfl)

def val_main_v61 : (⟨S1x50257, .f32⟩ : BufTy).Contents (Elt F) :=
  Host.dotGeneral dot_S1x1024_S1024x50257_S1x50257_1_0_0_1_n_n none (val_main_v59 (F := F) x0 x1 x2 x3 x4 x5 x6 x7 x8 x9 x10 x11) (val_main_v60 (F := F) x12)
def val_main_v62 : (⟨S1x50257, .f32⟩ : BufTy).Contents (Elt F) :=
  broadcastInDim S1x50257 ![1] bcast_S50257_S1x50257_1 (x13)
abbrev idx_main_v62 (i : S1x50257.Idx) : S50257.Idx := fun a => match a with
  | ⟨0, _⟩ => ⟨(i 1).val, (i 1).isLt⟩
theorem val_main_v62_apply (i : S1x50257.Idx) :
    val_main_v62 (F := F) x13 i = x13 (idx_main_v62 i) := by
  unfold val_main_v62
  exact broadcastInDim_apply _ bcast_S50257_S1x50257_1 x13 i (idx_main_v62 i) (fun a => match a with
    | ⟨0, _⟩ => by show (i 1).val = if (50257 : Nat) = 1 then 0 else (i 1).val; rw [if_neg (by decide)])

def val_main_v63 : (⟨S1x50257, .f32⟩ : BufTy).Contents (Elt F) :=
  addf (val_main_v61 (F := F) x0 x1 x2 x3 x4 x5 x6 x7 x8 x9 x10 x11 x12) (val_main_v62 (F := F) x13)
theorem val_main_v63_apply (i : S1x50257.Idx) :
    val_main_v63 (F := F) x0 x1 x2 x3 x4 x5 x6 x7 x8 x9 x10 x11 x12 x13 i = FloatOps.addf (val_main_v61 (F := F) x0 x1 x2 x3 x4 x5 x6 x7 x8 x9 x10 x11 x12 i) (val_main_v62 (F := F) x13 i) := rfl

end Cert.ReferenceIdeal.ReadP

end
-- ==== Proof.LibPlainDot.lean ====
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

private theorem coord_congr {s : Shape} (j : s.Idx) (a b : Nat) (ha : a < s.rank) (hb : b < s.rank) (e : a = b) :
    (j ⟨a, ha⟩).val = (j ⟨b, hb⟩).val := by subst e; rfl

theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The left operand's second axis is contracted against the right operand's first, so the entry (p, q) is the sum over k of l(p, k) · r(k, q). -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Ref.Stages.lean ====
import proofs.«163280_j13889924235715_1_alg».proof.Proof.Ref.ReadP
import proofs.«163280_j13889924235715_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Idealize.ShloMosaic.ValueIdx

variable {F : FTy → Type} [FloatOps F]

variable (x0 : (⟨S1, .i32⟩ : BufTy).Contents (Elt F)) (x1 : (⟨S1x1x1024, .f32⟩ : BufTy).Contents (Elt F)) (x2 : (⟨S4096x1024, .f32⟩ : BufTy).Contents (Elt F)) (x3 : (⟨S50257x1024, .f32⟩ : BufTy).Contents (Elt F)) (x4 : (⟨S4096x2048, .f32⟩ : BufTy).Contents (Elt F)) (x5 : (⟨S4096, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))

theorem clamp_toNat (i : ℤ) (n : ℕ) : (min (max i 0) (n : ℤ)).toNat = min i.toNat n := by omega

theorem gather_row_apply {α : Type} (x3 : S50257x1024.Idx → α) (idx : IVec S1x1 32) (k : Fin 1024) :
    Host.gather gather_S50257x1024_S1x1_S1x1024_1_0_n_n_0_1_11024 x3 idx (ix2 (0 : Fin 1) k)
      = x3 (ix2 (⟨min (idx (ix2 (0 : Fin 1) (0 : Fin 1))).toInt.toNat (50257 - 1), by omega⟩ : Fin 50257) k) := by
  unfold Host.gather
  congr 1
  funext a
  refine Fin.ext ?_
  match a with
  | ⟨0, _⟩ =>
    show gather_S50257x1024_S1x1_S1x1024_1_0_n_n_0_1_11024.start (ix2 (0 : Fin 1) k) idx 0
        + gather_S50257x1024_S1x1_S1x1024_1_0_n_n_0_1_11024.batchCoord (ix2 (0 : Fin 1) k) 0
        + gather_S50257x1024_S1x1_S1x1024_1_0_n_n_0_1_11024.offCoord (ix2 (0 : Fin 1) k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50257x1024_S1x1_S1x1024_1_0_n_n_0_1_11024.startIndexMap from
      List.mem_singleton.mpr rfl)]
    have hsi : gather_S50257x1024_S1x1_S1x1024_1_0_n_n_0_1_11024.siIdx (ix2 (0 : Fin 1) k)
        ⟨List.idxOf (0 : Fin 2) gather_S50257x1024_S1x1_S1x1024_1_0_n_n_0_1_11024.startIndexMap,
          List.idxOf_lt_length_iff.2 (List.mem_singleton.mpr rfl)⟩ = ix2 (0 : Fin 1) (0 : Fin 1) := by
      funext b; refine Fin.ext ?_
      match b with
      | ⟨0, _⟩ => rfl
      | ⟨1, _⟩ => rfl
    rw [hsi]
    rfl
  | ⟨1, _⟩ =>
    show gather_S50257x1024_S1x1_S1x1024_1_0_n_n_0_1_11024.start (ix2 (0 : Fin 1) k) idx 1
        + gather_S50257x1024_S1x1_S1x1024_1_0_n_n_0_1_11024.batchCoord (ix2 (0 : Fin 1) k) 1
        + gather_S50257x1024_S1x1_S1x1024_1_0_n_n_0_1_11024.offCoord (ix2 (0 : Fin 1) k) 1 = _
    rw [GatherDims.batchCoord_eq_zero _ _ _ List.not_mem_nil]
    have hs : gather_S50257x1024_S1x1_S1x1024_1_0_n_n_0_1_11024.start (ix2 (0 : Fin 1) k) idx 1 = 0 := by
      unfold GatherDims.start
      rw [dif_neg (by decide)]
    have ho : gather_S50257x1024_S1x1_S1x1024_1_0_n_n_0_1_11024.offCoord (ix2 (0 : Fin 1) k) 1 = k.val := by
      unfold GatherDims.offCoord
      rw [dif_pos (by decide)]
      rfl
    rw [hs, ho]
    simp

theorem val_main_v5_at :
    val_main_v5 (F := F) x0 (ix2 (0 : Fin 1) (0 : Fin 1))
      = Scalar.select (IntOp.cmpi .slt (x0 (ix1 (0 : Fin 1))) 0#32) (IntOp.addi (x0 (ix1 (0 : Fin 1))) 50257#32) (x0 (ix1 (0 : Fin 1))) := by
  have e : idx_main_v5 (ix2 (0 : Fin 1) (0 : Fin 1)) = ix1 (0 : Fin 1) := funext fun a => by
    match a with | ⟨0, _⟩ => rfl
  rw [val_main_v5_apply, e, val_main_v4_apply, val_main_v1_apply, val_main_v3_apply, val_main_v0_apply, val_main_v2_apply,
    val_main_c_apply, val_main_c_0_apply]

theorem val_main_v6_at (k : Fin 1024) :
    val_main_v6 (F := F) x0 x3 (ix2 (0 : Fin 1) k)
      = x3 (ix2 (⟨(min (max (Scalar.select (IntOp.cmpi .slt (x0 (ix1 (0 : Fin 1))) 0#32) (IntOp.addi (x0 (ix1 (0 : Fin 1))) 50257#32) (x0 (ix1 (0 : Fin 1)))).toInt 0) ((50257 - 1 : ℕ) : ℤ)).toNat, by omega⟩ : Fin 50257) k) := by
  unfold val_main_v6
  rw [gather_row_apply]
  refine congrArg (fun r : Fin 50257 => x3 (ix2 r k)) (Fin.ext ?_)
  show min (BitVec.toInt (val_main_v5 (F := F) x0 (ix2 (0 : Fin 1) (0 : Fin 1)))).toNat (50257 - 1) = _
  rw [val_main_v5_at]
  exact (clamp_toNat _ _).symm

theorem idx_v7_v9 (k : Fin 1024) : idx_main_v7 (idx_main_v9 (ix2 (0 : Fin 1) k)) = ix2 (0 : Fin 1) k := funext fun a => by
  match a with
  | ⟨0, _⟩ => rfl
  | ⟨1, _⟩ =>
    refine Fin.ext ?_
    show ((0 * 1 + 0) * 1024 + (0 * 1024 + k.val) % 1024) % 1024 = k.val
    have := k.isLt; omega

theorem idx_v7_v17 (k : Fin 1024) : idx_main_v7 (idx_main_v17 (ix2 (0 : Fin 1) k)) = ix2 (0 : Fin 1) k := funext fun a => by
  match a with
  | ⟨0, _⟩ => rfl
  | ⟨1, _⟩ =>
    refine Fin.ext ?_
    show ((0 * 1 + 0) * 1024 + (0 * 1024 + k.val) % 1024) % 1024 = k.val
    have := k.isLt; omega

theorem val_main_v9_at (k : Fin 1024) :
    val_main_v9 (F := F) x0 x3 (ix2 (0 : Fin 1) k)
      = x3 (ix2 (⟨(min (max (Scalar.select (IntOp.cmpi .slt (x0 (ix1 (0 : Fin 1))) 0#32) (IntOp.addi (x0 (ix1 (0 : Fin 1))) 50257#32) (x0 (ix1 (0 : Fin 1)))).toInt 0) ((50257 - 1 : ℕ) : ℤ)).toNat, by omega⟩ : Fin 50257) k) := by
  rw [val_main_v9_apply, val_main_v7_apply, idx_v7_v9, val_main_v6_at]

theorem val_main_v17_at (k : Fin 1024) :
    val_main_v17 (F := F) x0 x3 (ix2 (0 : Fin 1) k)
      = x3 (ix2 (⟨(min (max (Scalar.select (IntOp.cmpi .slt (x0 (ix1 (0 : Fin 1))) 0#32) (IntOp.addi (x0 (ix1 (0 : Fin 1))) 50257#32) (x0 (ix1 (0 : Fin 1)))).toInt 0) ((50257 - 1 : ℕ) : ℤ)).toNat, by omega⟩ : Fin 50257) k) := by
  rw [val_main_v17_apply, val_main_v7_apply, idx_v7_v17, val_main_v6_at]

theorem val_main_v8_at (k : Fin 1024) :
    val_main_v8 (F := F) x1 (ix2 (0 : Fin 1) k) = x1 (ix3 (0 : Fin 1) (0 : Fin 1) k) := by
  have e : idx_main_v8 (ix2 (0 : Fin 1) k) = ix3 (0 : Fin 1) (0 : Fin 1) k := funext fun a => by
    match a with
    | ⟨0, _⟩ => rfl
    | ⟨1, _⟩ => rfl
    | ⟨2, _⟩ =>
      refine Fin.ext ?_
      show (0 * 1024 + k.val) % 1024 = k.val
      have := k.isLt; omega
  rw [val_main_v8_apply, e]

theorem concat_rows_left {α : Type} (a b : S1x1024.Idx → α) (k : Fin 2048) (hk : k.val < 1024) :
    concatenate S1x2048 1 [⟨S1x1024, a⟩, ⟨S1x1024, b⟩] concatenates_S1x1024_S1x1024_S1x2048_d1 (ix2 (0 : Fin 1) k)
      = a (ix2 (0 : Fin 1) (⟨k.val, hk⟩ : Fin 1024)) := by
  refine concatenate_pair_apply_left (1 : Fin S1x2048.rank) a b concatenates_S1x1024_S1x1024_S1x2048_d1 _ rfl _ ?_
  intro c
  match c with
  | ⟨0, _⟩ => rfl
  | ⟨1, _⟩ => rfl

theorem concat_rows_right {α : Type} (a b : S1x1024.Idx → α) (k : Fin 2048) (hk : 1024 ≤ k.val) :
    concatenate S1x2048 1 [⟨S1x1024, a⟩, ⟨S1x1024, b⟩] concatenates_S1x1024_S1x1024_S1x2048_d1 (ix2 (0 : Fin 1) k)
      = b (ix2 (0 : Fin 1) (⟨k.val - 1024, by have := k.isLt; omega⟩ : Fin 1024)) := by
  refine concatenate_pair_apply_right (1 : Fin S1x2048.rank) a b concatenates_S1x1024_S1x1024_S1x2048_d1 _ rfl rfl _ ?_ ?_
  · intro c hc
    match c with
    | ⟨0, _⟩ => rfl
    | ⟨1, _⟩ => exact absurd rfl hc
  · show (k.val - 1024) + 1024 = k.val
    omega

theorem val_main_v10_left (k : Fin 2048) (hk : k.val < 1024) :
    val_main_v10 (F := F) x0 x1 x3 (ix2 (0 : Fin 1) k) = val_main_v9 (F := F) x0 x3 (ix2 (0 : Fin 1) (⟨k.val, hk⟩ : Fin 1024)) := by
  unfold val_main_v10
  exact concat_rows_left _ _ k hk

theorem val_main_v10_right (k : Fin 2048) (hk : 1024 ≤ k.val) :
    val_main_v10 (F := F) x0 x1 x3 (ix2 (0 : Fin 1) k)
      = val_main_v8 (F := F) x1 (ix2 (0 : Fin 1) (⟨k.val - 1024, by have := k.isLt; omega⟩ : Fin 1024)) := by
  unfold val_main_v10
  exact concat_rows_right _ _ k hk

theorem val_main_v10_at (k : Fin 2048) :
    val_main_v10 (F := F) x0 x1 x3 (ix2 (0 : Fin 1) k)
      = if hk : k.val < 1024 then val_main_v9 (F := F) x0 x3 (ix2 (0 : Fin 1) (⟨k.val, hk⟩ : Fin 1024))
        else val_main_v8 (F := F) x1 (ix2 (0 : Fin 1) (⟨k.val - 1024, by have := k.isLt; omega⟩ : Fin 1024)) := by
  split
  · next hk => exact val_main_v10_left x0 x1 x3 k hk
  · next hk => exact val_main_v10_right x0 x1 x3 k (Nat.le_of_not_lt hk)

theorem val_main_v18_left (k : Fin 2048) (hk : k.val < 1024) :
    val_main_v18 (F := F) x0 x1 x2 x3 x4 x5 (ix2 (0 : Fin 1) k) = val_main_v17 (F := F) x0 x3 (ix2 (0 : Fin 1) (⟨k.val, hk⟩ : Fin 1024)) := by
  unfold val_main_v18
  exact concat_rows_left _ _ k hk

theorem val_main_v18_right (k : Fin 2048) (hk : 1024 ≤ k.val) :
    val_main_v18 (F := F) x0 x1 x2 x3 x4 x5 (ix2 (0 : Fin 1) k)
      = val_main_v16 (F := F) x0 x1 x2 x3 x4 x5 (ix2 (0 : Fin 1) (⟨k.val - 1024, by have := k.isLt; omega⟩ : Fin 1024)) := by
  unfold val_main_v18
  exact concat_rows_right _ _ k hk

theorem val_main_v18_at (k : Fin 2048) :
    val_main_v18 (F := F) x0 x1 x2 x3 x4 x5 (ix2 (0 : Fin 1) k)
      = if hk : k.val < 1024 then val_main_v17 (F := F) x0 x3 (ix2 (0 : Fin 1) (⟨k.val, hk⟩ : Fin 1024))
        else val_main_v16 (F := F) x0 x1 x2 x3 x4 x5 (ix2 (0 : Fin 1) (⟨k.val - 1024, by have := k.isLt; omega⟩ : Fin 1024)) := by
  split
  · next hk => exact val_main_v18_left x0 x1 x2 x3 x4 x5 k hk
  · next hk => exact val_main_v18_right x0 x1 x2 x3 x4 x5 k (Nat.le_of_not_lt hk)

theorem val_main_v10_args (k : Fin 2048) :
    val_main_v10 (F := F) x0 x1 x3 (ix2 (0 : Fin 1) k)
      = if hk : k.val < 1024 then x3 (ix2 (⟨(min (max (Scalar.select (IntOp.cmpi .slt (x0 (ix1 (0 : Fin 1))) 0#32) (IntOp.addi (x0 (ix1 (0 : Fin 1))) 50257#32) (x0 (ix1 (0 : Fin 1)))).toInt 0) ((50257 - 1 : ℕ) : ℤ)).toNat, by omega⟩ : Fin 50257) (⟨k.val, hk⟩ : Fin 1024))
        else x1 (ix3 (0 : Fin 1) (0 : Fin 1) (⟨k.val - 1024, by have := k.isLt; omega⟩ : Fin 1024)) := by
  rw [val_main_v10_at]
  split
  · exact val_main_v9_at x0 x3 _
  · exact val_main_v8_at x1 _

theorem val_main_v18_args (k : Fin 2048) :
    val_main_v18 (F := F) x0 x1 x2 x3 x4 x5 (ix2 (0 : Fin 1) k)
      = if hk : k.val < 1024 then x3 (ix2 (⟨(min (max (Scalar.select (IntOp.cmpi .slt (x0 (ix1 (0 : Fin 1))) 0#32) (IntOp.addi (x0 (ix1 (0 : Fin 1))) 50257#32) (x0 (ix1 (0 : Fin 1)))).toInt 0) ((50257 - 1 : ℕ) : ℤ)).toNat, by omega⟩ : Fin 50257) (⟨k.val, hk⟩ : Fin 1024))
        else val_main_v16 (F := F) x0 x1 x2 x3 x4 x5 (ix2 (0 : Fin 1) (⟨k.val - 1024, by have := k.isLt; omega⟩ : Fin 1024)) := by
  rw [val_main_v18_at]
  split
  · exact val_main_v17_at x0 x3 _
  · rfl

section AtIdeal

variable (x0 : (⟨S1, .i32⟩ : BufTy).Contents (Elt Ideal)) (x1 : (⟨S1x1x1024, .f32⟩ : BufTy).Contents (Elt Ideal)) (x2 : (⟨S4096x1024, .f32⟩ : BufTy).Contents (Elt Ideal)) (x3 : (⟨S50257x1024, .f32⟩ : BufTy).Contents (Elt Ideal)) (x4 : (⟨S4096x2048, .f32⟩ : BufTy).Contents (Elt Ideal)) (x5 : (⟨S4096, .f32⟩ : BufTy).Contents (Elt Ideal)) (x6 : (⟨S1024x2048, .f32⟩ : BufTy).Contents (Elt Ideal)) (x7 : (⟨S1024, .f32⟩ : BufTy).Contents (Elt Ideal)) (x8 : (⟨S3072x1024, .f32⟩ : BufTy).Contents (Elt Ideal)) (x9 : (⟨S3072x1024, .f32⟩ : BufTy).Contents (Elt Ideal)) (x10 : (⟨S3072, .f32⟩ : BufTy).Contents (Elt Ideal)) (x11 : (⟨S3072, .f32⟩ : BufTy).Contents (Elt Ideal)) (x12 : (⟨S50257x1024, .f32⟩ : BufTy).Contents (Elt Ideal)) (x13 : (⟨S50257, .f32⟩ : BufTy).Contents (Elt Ideal))

theorem plain_S1x2048_S2048x4096_S1x4096 : PlainDot.IsPlain dot_S1x2048_S2048x4096_S1x4096_1_0_0_1_n_n := ⟨rfl, rfl, rfl, rfl, rfl, rfl⟩

theorem val_main_v14_stage (q : Fin 4096) :
    val_main_v14 (F := Ideal) x0 x1 x3 x4 x5 (ix2 (0 : Fin 1) q)
      = (∑ k : Fin 2048, val_main_v10 (F := Ideal) x0 x1 x3 (ix2 (0 : Fin 1) k) * x4 (ix2 q k)) + x5 (ix1 q) := by
  have e2 : ∀ k : Fin 2048, idx_main_v11 (ix2 k q) = ix2 q k := fun k => funext fun a => by
    match a with
    | ⟨0, _⟩ => rfl
    | ⟨1, _⟩ => rfl
  have e3 : idx_main_v13 (ix2 (0 : Fin 1) q) = ix1 q := funext fun a => by
    match a with
    | ⟨0, _⟩ => rfl
  rw [val_main_v14_apply, val_main_v13_apply, e3]
  refine congrArg₂ (· + ·) ((PlainDot.dotGeneral_apply plain_S1x2048_S2048x4096_S1x4096 none _ _ _ 0 q).trans ?_) rfl
  simp only [val_main_v11_apply, e2]

theorem plain_S1x4096_S4096x1024_S1x1024 : PlainDot.IsPlain dot_S1x4096_S4096x1024_S1x1024_1_0_0_1_n_n := ⟨rfl, rfl, rfl, rfl, rfl, rfl⟩

theorem val_main_v16_stage (q : Fin 1024) :
    val_main_v16 (F := Ideal) x0 x1 x2 x3 x4 x5 (ix2 (0 : Fin 1) q)
      = ∑ k : Fin 4096, val_main_v15 (F := Ideal) x0 x1 x3 x4 x5 (ix2 (0 : Fin 1) k) * x2 (ix2 k q) :=
  PlainDot.dotGeneral_apply plain_S1x4096_S4096x1024_S1x1024 none _ _ _ 0 q

theorem plain_S1x2048_S2048x1024_S1x1024 : PlainDot.IsPlain dot_S1x2048_S2048x1024_S1x1024_1_0_0_1_n_n := ⟨rfl, rfl, rfl, rfl, rfl, rfl⟩

theorem val_main_v22_stage (q : Fin 1024) :
    val_main_v22 (F := Ideal) x0 x1 x2 x3 x4 x5 x6 x7 (ix2 (0 : Fin 1) q)
      = (∑ k : Fin 2048, val_main_v18 (F := Ideal) x0 x1 x2 x3 x4 x5 (ix2 (0 : Fin 1) k) * x6 (ix2 q k)) + x7 (ix1 q) := by
  have e2 : ∀ k : Fin 2048, idx_main_v19 (ix2 k q) = ix2 q k := fun k => funext fun a => by
    match a with
    | ⟨0, _⟩ => rfl
    | ⟨1, _⟩ => rfl
  have e3 : idx_main_v21 (ix2 (0 : Fin 1) q) = ix1 q := funext fun a => by
    match a with
    | ⟨0, _⟩ => rfl
  rw [val_main_v22_apply, val_main_v21_apply, e3]
  refine congrArg₂ (· + ·) ((PlainDot.dotGeneral_apply plain_S1x2048_S2048x1024_S1x1024 none _ _ _ 0 q).trans ?_) rfl
  simp only [val_main_v19_apply, e2]

theorem plain_S1x1024_S1024x3072_S1x3072 : PlainDot.IsPlain dot_S1x1024_S1024x3072_S1x3072_1_0_0_1_n_n := ⟨rfl, rfl, rfl, rfl, rfl, rfl⟩

theorem val_main_v27_stage (q : Fin 3072) :
    val_main_v27 (F := Ideal) x0 x1 x2 x3 x4 x5 x6 x7 x8 x10 (ix2 (0 : Fin 1) q)
      = (∑ k : Fin 1024, val_main_v23 (F := Ideal) x0 x1 x2 x3 x4 x5 x6 x7 (ix2 (0 : Fin 1) k) * x8 (ix2 q k)) + x10 (ix1 q) := by
  have e2 : ∀ k : Fin 1024, idx_main_v24 (ix2 k q) = ix2 q k := fun k => funext fun a => by
    match a with
    | ⟨0, _⟩ => rfl
    | ⟨1, _⟩ => rfl
  have e3 : idx_main_v26 (ix2 (0 : Fin 1) q) = ix1 q := funext fun a => by
    match a with
    | ⟨0, _⟩ => rfl
  rw [val_main_v27_apply, val_main_v26_apply, e3]
  refine congrArg₂ (· + ·) ((PlainDot.dotGeneral_apply plain_S1x1024_S1024x3072_S1x3072 none _ _ _ 0 q).trans ?_) rfl
  simp only [val_main_v24_apply, e2]

theorem val_main_v31_stage (q : Fin 3072) :
    val_main_v31 (F := Ideal) x1 x9 x11 (ix2 (0 : Fin 1) q)
      = (∑ k : Fin 1024, val_main_v8 (F := Ideal) x1 (ix2 (0 : Fin 1) k) * x9 (ix2 q k)) + x11 (ix1 q) := by
  have e2 : ∀ k : Fin 1024, idx_main_v28 (ix2 k q) = ix2 q k := fun k => funext fun a => by
    match a with
    | ⟨0, _⟩ => rfl
    | ⟨1, _⟩ => rfl
  have e3 : idx_main_v30 (ix2 (0 : Fin 1) q) = ix1 q := funext fun a => by
    match a with
    | ⟨0, _⟩ => rfl
  rw [val_main_v31_apply, val_main_v30_apply, e3]
  refine congrArg₂ (· + ·) ((PlainDot.dotGeneral_apply plain_S1x1024_S1024x3072_S1x3072 none _ _ _ 0 q).trans ?_) rfl
  simp only [val_main_v28_apply, e2]

theorem plain_S1x1024_S1024x50257_S1x50257 : PlainDot.IsPlain dot_S1x1024_S1024x50257_S1x50257_1_0_0_1_n_n := ⟨rfl, rfl, rfl, rfl, rfl, rfl⟩

theorem val_main_v63_stage (q : Fin 50257) :
    val_main_v63 (F := Ideal) x0 x1 x2 x3 x4 x5 x6 x7 x8 x9 x10 x11 x12 x13 (ix2 (0 : Fin 1) q)
      = (∑ k : Fin 1024, val_main_v59 (F := Ideal) x0 x1 x2 x3 x4 x5 x6 x7 x8 x9 x10 x11 (ix2 (0 : Fin 1) k) * x12 (ix2 q k)) + x13 (ix1 q) := by
  have e2 : ∀ k : Fin 1024, idx_main_v60 (ix2 k q) = ix2 q k := fun k => funext fun a => by
    match a with
    | ⟨0, _⟩ => rfl
    | ⟨1, _⟩ => rfl
  have e3 : idx_main_v62 (ix2 (0 : Fin 1) q) = ix1 q := funext fun a => by
    match a with
    | ⟨0, _⟩ => rfl
  rw [val_main_v63_apply, val_main_v62_apply, e3]
  refine congrArg₂ (· + ·) ((PlainDot.dotGeneral_apply plain_S1x1024_S1024x50257_S1x50257 none _ _ _ 0 q).trans ?_) rfl
  simp only [val_main_v60_apply, e2]

end AtIdeal

def lsmShiftR (x : Vec F S1x4096 .f32) : Vec F S1x4096 .f32 :=
  subf x (broadcastInDim S1x4096 ![0, 1] bcast_S1x1_S1x4096_0_1 (broadcastInDim S1x1 ![0] bcast_S1_S1x1_0
    (maximumf (broadcastInDim S1 ![] bcast_S_S1 (constant (F := F) S_ .f32 0xFF800000#32))
      (Host.reduce FloatOps.maximumf x (constant (F := F) S_ .f32 0xFF800000#32) reducesTo_S1x4096_S1_d1 h_S_))))

def lsmR (x : Vec F S1x4096 .f32) : Vec F S1x4096 .f32 :=
  subf (lsmShiftR x) (broadcastInDim S1x4096 ![0, 1] bcast_S1x1_S1x4096_0_1 (Host.log (broadcastInDim S1x1 ![0] bcast_S1_S1x1_0
    (Host.reduceAdd (Host.exp (lsmShiftR x)) (constant (F := F) S_ .f32 0x00000000#32) reducesTo_S1x4096_S1_d1 h_S_))))

def reluR (x : Vec F S1x1024 .f32) : Vec F S1x1024 .f32 :=
  maximumf x (broadcastInDim S1x1024 ![] bcast_S_S1x1024 (constant (F := F) S_ .f32 0x00000000#32))

def oneR : Vec F S1x1024 .f32 := broadcastInDim S1x1024 ![] bcast_S_S1x1024 (constant (F := F) S_ .f32 0x3F800000#32)

def sigmR (a : Vec F S1x1024 .f32) : Vec F S1x1024 .f32 := Host.divf (oneR (F := F)) (addf (oneR (F := F)) (Host.exp (Host.negf a)))

def gruR (gi gh : Vec F S1x3072 .f32) (h0 : Vec F S1x1024 .f32) : Vec F S1x1024 .f32 :=
  addf
    (mulf (subf (oneR (F := F)) (sigmR (addf (extractStridedSlice S1x1024 ![0, 1024] gi slices_S1x3072_S1x1024_0_1024) (extractStridedSlice S1x1024 ![0, 1024] gh slices_S1x3072_S1x1024_0_1024))))
      (Host.tanh (addf (extractStridedSlice S1x1024 ![0, 2048] gi slices_S1x3072_S1x1024_0_2048)
        (mulf (sigmR (addf (extractStridedSlice S1x1024 ![0, 0] gi slices_S1x3072_S1x1024_0_0) (extractStridedSlice S1x1024 ![0, 0] gh slices_S1x3072_S1x1024_0_0))) (extractStridedSlice S1x1024 ![0, 2048] gh slices_S1x3072_S1x1024_0_2048)))))
    (mulf (sigmR (addf (extractStridedSlice S1x1024 ![0, 1024] gi slices_S1x3072_S1x1024_0_1024) (extractStridedSlice S1x1024 ![0, 1024] gh slices_S1x3072_S1x1024_0_1024))) h0)

theorem val_main_v15_eq_lsmR :
    val_main_v15 (F := F) x0 x1 x3 x4 x5 = lsmR (val_main_v14 (F := F) x0 x1 x3 x4 x5) := rfl

theorem val_main_v23_eq_reluR :
    val_main_v23 (F := F) x0 x1 x2 x3 x4 x5 x6 x7 = reluR (val_main_v22 (F := F) x0 x1 x2 x3 x4 x5 x6 x7) := rfl

theorem val_main_v59_eq_gruR :
    val_main_v59 (F := F) x0 x1 x2 x3 x4 x5 x6 x7 x8 x9 x10 x11
      = gruR (val_main_v27 (F := F) x0 x1 x2 x3 x4 x5 x6 x7 x8 x10) (val_main_v31 (F := F) x1 x9 x11) (val_main_v8 (F := F) x1) := rfl

theorem reluR_apply (x : Vec Ideal S1x1024 .f32) (i : S1x1024.Idx) :
    reluR (F := Ideal) x i = max (x i) (Ideal.ofBits .f32 0x00000000#32) := by
  show max (x i) (val_main_call1_v0 (F := Ideal) i) = _
  rw [val_main_call1_v0_apply, val_main_call1_cst_apply]
  rfl

theorem reluR_apply_zero (x : Vec Ideal S1x1024 .f32) (i : S1x1024.Idx) :
    reluR (F := Ideal) x i = max (x i) 0 := by
  rw [reluR_apply, Ideal.ofBits_zero_f32]

theorem val_main_v23_at (x0 : (⟨S1, .i32⟩ : BufTy).Contents (Elt Ideal)) (x1 : (⟨S1x1x1024, .f32⟩ : BufTy).Contents (Elt Ideal)) (x2 : (⟨S4096x1024, .f32⟩ : BufTy).Contents (Elt Ideal)) (x3 : (⟨S50257x1024, .f32⟩ : BufTy).Contents (Elt Ideal)) (x4 : (⟨S4096x2048, .f32⟩ : BufTy).Contents (Elt Ideal)) (x5 : (⟨S4096, .f32⟩ : BufTy).Contents (Elt Ideal)) (x6 : (⟨S1024x2048, .f32⟩ : BufTy).Contents (Elt Ideal)) (x7 : (⟨S1024, .f32⟩ : BufTy).Contents (Elt Ideal)) (k : Fin 1024) :
    val_main_v23 (F := Ideal) x0 x1 x2 x3 x4 x5 x6 x7 (ix2 (0 : Fin 1) k) = max (val_main_v22 (F := Ideal) x0 x1 x2 x3 x4 x5 x6 x7 (ix2 (0 : Fin 1) k)) 0 := by
  rw [val_main_v23_eq_reluR, reluR_apply_zero]

end Cert.ReferenceIdeal.Stages

end
-- ==== Proof.Ref.RunStages.lean ====
import proofs.«163280_j13889924235715_1_alg».proof.Proof.Ref.ReadP

noncomputable section

namespace Cert.ReferenceIdeal.RunStages

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

variable (x0 : (⟨S1, .i32⟩ : BufTy).Contents (Elt F)) (x1 : (⟨S1x1x1024, .f32⟩ : BufTy).Contents (Elt F)) (x2 : (⟨S4096x1024, .f32⟩ : BufTy).Contents (Elt F)) (x3 : (⟨S50257x1024, .f32⟩ : BufTy).Contents (Elt F)) (x4 : (⟨S4096x2048, .f32⟩ : BufTy).Contents (Elt F)) (x5 : (⟨S4096, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))

theorem ops_eq : (ops (F := F)) = c1 ++ (c2 ++ (c3 ++ (c4 ++ c5))) := rfl

theorem c1_main_v7 (W : Valuation τ sig (Elt F))
    (h_main_arg3 : W (Proc.devRef .tc main_arg3) = x3)
    (h_main_arg0 : W (Proc.devRef .tc main_arg0) = x0) :
    after (c1 (F := F)) W (Proc.devRef .tc main_v7) = val_main_v7 (F := F) x0 x3 := by
  after_results_simp
  rw [h_main_arg3, h_main_arg0]
  (try simp only [TRef.ofBuf, TRef.toBuf, cast_eq])
  rfl

theorem c1_main_v8 (W : Valuation τ sig (Elt F))
    (h_main_arg1 : W (Proc.devRef .tc main_arg1) = x1) :
    after (c1 (F := F)) W (Proc.devRef .tc main_v8) = val_main_v8 (F := F) x1 := by
  after_results_simp
  rw [h_main_arg1]
  (try simp only [TRef.ofBuf, TRef.toBuf, cast_eq])
  rfl

theorem c1_main_v9 (W : Valuation τ sig (Elt F))
    (h_main_arg3 : W (Proc.devRef .tc main_arg3) = x3)
    (h_main_arg0 : W (Proc.devRef .tc main_arg0) = x0) :
    after (c1 (F := F)) W (Proc.devRef .tc main_v9) = val_main_v9 (F := F) x0 x3 := by
  after_results_simp
  rw [h_main_arg3, h_main_arg0]
  (try simp only [TRef.ofBuf, TRef.toBuf, cast_eq])
  rfl

theorem c1_keep_main_arg2 (W : Valuation τ sig (Elt F)) :
    after (c1 (F := F)) W (Proc.devRef .tc main_arg2) = W (Proc.devRef .tc main_arg2) := by
  after_results_simp <;> rfl

theorem c1_keep_main_arg4 (W : Valuation τ sig (Elt F)) :
    after (c1 (F := F)) W (Proc.devRef .tc main_arg4) = W (Proc.devRef .tc main_arg4) := by
  after_results_simp <;> rfl

theorem c1_keep_main_arg5 (W : Valuation τ sig (Elt F)) :
    after (c1 (F := F)) W (Proc.devRef .tc main_arg5) = W (Proc.devRef .tc main_arg5) := by
  after_results_simp <;> rfl

theorem c1_keep_main_arg6 (W : Valuation τ sig (Elt F)) :
    after (c1 (F := F)) W (Proc.devRef .tc main_arg6) = W (Proc.devRef .tc main_arg6) := by
  after_results_simp <;> rfl

theorem c1_keep_main_arg7 (W : Valuation τ sig (Elt F)) :
    after (c1 (F := F)) W (Proc.devRef .tc main_arg7) = W (Proc.devRef .tc main_arg7) := by
  after_results_simp <;> rfl

theorem c1_keep_main_arg8 (W : Valuation τ sig (Elt F)) :
    after (c1 (F := F)) W (Proc.devRef .tc main_arg8) = W (Proc.devRef .tc main_arg8) := by
  after_results_simp <;> rfl

theorem c1_keep_main_arg9 (W : Valuation τ sig (Elt F)) :
    after (c1 (F := F)) W (Proc.devRef .tc main_arg9) = W (Proc.devRef .tc main_arg9) := by
  after_results_simp <;> rfl

theorem c1_keep_main_arg10 (W : Valuation τ sig (Elt F)) :
    after (c1 (F := F)) W (Proc.devRef .tc main_arg10) = W (Proc.devRef .tc main_arg10) := by
  after_results_simp <;> rfl

theorem c1_keep_main_arg11 (W : Valuation τ sig (Elt F)) :
    after (c1 (F := F)) W (Proc.devRef .tc main_arg11) = W (Proc.devRef .tc main_arg11) := by
  after_results_simp <;> rfl

theorem c1_keep_main_arg12 (W : Valuation τ sig (Elt F)) :
    after (c1 (F := F)) W (Proc.devRef .tc main_arg12) = W (Proc.devRef .tc main_arg12) := by
  after_results_simp <;> rfl

theorem c1_keep_main_arg13 (W : Valuation τ sig (Elt F)) :
    after (c1 (F := F)) W (Proc.devRef .tc main_arg13) = W (Proc.devRef .tc main_arg13) := by
  after_results_simp <;> rfl

theorem c2_main_v16 (W : Valuation τ sig (Elt F))
    (h_main_v9 : W (Proc.devRef .tc main_v9) = val_main_v9 (F := F) x0 x3)
    (h_main_v8 : W (Proc.devRef .tc main_v8) = val_main_v8 (F := F) x1)
    (h_main_arg4 : W (Proc.devRef .tc main_arg4) = x4)
    (h_main_arg5 : W (Proc.devRef .tc main_arg5) = x5)
    (h_main_arg2 : W (Proc.devRef .tc main_arg2) = x2) :
    after (c2 (F := F)) W (Proc.devRef .tc main_v16) = val_main_v16 (F := F) x0 x1 x2 x3 x4 x5 := by
  after_results_simp
  rw [h_main_v9, h_main_v8, h_main_arg4, h_main_arg5, h_main_arg2]
  (try simp only [TRef.ofBuf, TRef.toBuf, cast_eq])
  rfl

theorem c2_main_v17 (W : Valuation τ sig (Elt F))
    (h_main_v7 : W (Proc.devRef .tc main_v7) = val_main_v7 (F := F) x0 x3) :
    after (c2 (F := F)) W (Proc.devRef .tc main_v17) = val_main_v17 (F := F) x0 x3 := by
  after_results_simp
  rw [h_main_v7]
  (try simp only [TRef.ofBuf, TRef.toBuf, cast_eq])
  rfl

theorem c2_keep_main_arg6 (W : Valuation τ sig (Elt F)) :
    after (c2 (F := F)) W (Proc.devRef .tc main_arg6) = W (Proc.devRef .tc main_arg6) := by
  after_results_simp <;> rfl

theorem c2_keep_main_arg7 (W : Valuation τ sig (Elt F)) :
    after (c2 (F := F)) W (Proc.devRef .tc main_arg7) = W (Proc.devRef .tc main_arg7) := by
  after_results_simp <;> rfl

theorem c2_keep_main_arg8 (W : Valuation τ sig (Elt F)) :
    after (c2 (F := F)) W (Proc.devRef .tc main_arg8) = W (Proc.devRef .tc main_arg8) := by
  after_results_simp <;> rfl

theorem c2_keep_main_arg9 (W : Valuation τ sig (Elt F)) :
    after (c2 (F := F)) W (Proc.devRef .tc main_arg9) = W (Proc.devRef .tc main_arg9) := by
  after_results_simp <;> rfl

theorem c2_keep_main_arg10 (W : Valuation τ sig (Elt F)) :
    after (c2 (F := F)) W (Proc.devRef .tc main_arg10) = W (Proc.devRef .tc main_arg10) := by
  after_results_simp <;> rfl

theorem c2_keep_main_arg11 (W : Valuation τ sig (Elt F)) :
    after (c2 (F := F)) W (Proc.devRef .tc main_arg11) = W (Proc.devRef .tc main_arg11) := by
  after_results_simp <;> rfl

theorem c2_keep_main_arg12 (W : Valuation τ sig (Elt F)) :
    after (c2 (F := F)) W (Proc.devRef .tc main_arg12) = W (Proc.devRef .tc main_arg12) := by
  after_results_simp <;> rfl

theorem c2_keep_main_arg13 (W : Valuation τ sig (Elt F)) :
    after (c2 (F := F)) W (Proc.devRef .tc main_arg13) = W (Proc.devRef .tc main_arg13) := by
  after_results_simp <;> rfl

theorem c2_keep_main_v8 (W : Valuation τ sig (Elt F)) :
    after (c2 (F := F)) W (Proc.devRef .tc main_v8) = W (Proc.devRef .tc main_v8) := by
  after_results_simp <;> rfl

theorem c3_main_v27 (W : Valuation τ sig (Elt F))
    (h_main_v17 : W (Proc.devRef .tc main_v17) = val_main_v17 (F := F) x0 x3)
    (h_main_v16 : W (Proc.devRef .tc main_v16) = val_main_v16 (F := F) x0 x1 x2 x3 x4 x5)
    (h_main_arg6 : W (Proc.devRef .tc main_arg6) = x6)
    (h_main_arg7 : W (Proc.devRef .tc main_arg7) = x7)
    (h_main_arg8 : W (Proc.devRef .tc main_arg8) = x8)
    (h_main_arg10 : W (Proc.devRef .tc main_arg10) = x10) :
    after (c3 (F := F)) W (Proc.devRef .tc main_v27) = val_main_v27 (F := F) x0 x1 x2 x3 x4 x5 x6 x7 x8 x10 := by
  after_results_simp
  rw [h_main_v17, h_main_v16, h_main_arg6, h_main_arg7, h_main_arg8, h_main_arg10]
  (try simp only [TRef.ofBuf, TRef.toBuf, cast_eq])
  rfl

theorem c3_main_v31 (W : Valuation τ sig (Elt F))
    (h_main_v8 : W (Proc.devRef .tc main_v8) = val_main_v8 (F := F) x1)
    (h_main_arg9 : W (Proc.devRef .tc main_arg9) = x9)
    (h_main_arg11 : W (Proc.devRef .tc main_arg11) = x11) :
    after (c3 (F := F)) W (Proc.devRef .tc main_v31) = val_main_v31 (F := F) x1 x9 x11 := by
  after_results_simp
  rw [h_main_v8, h_main_arg9, h_main_arg11]
  (try simp only [TRef.ofBuf, TRef.toBuf, cast_eq])
  rfl

theorem c3_keep_main_arg12 (W : Valuation τ sig (Elt F)) :
    after (c3 (F := F)) W (Proc.devRef .tc main_arg12) = W (Proc.devRef .tc main_arg12) := by
  after_results_simp <;> rfl

theorem c3_keep_main_arg13 (W : Valuation τ sig (Elt F)) :
    after (c3 (F := F)) W (Proc.devRef .tc main_arg13) = W (Proc.devRef .tc main_arg13) := by
  after_results_simp <;> rfl

theorem c3_keep_main_v8 (W : Valuation τ sig (Elt F)) :
    after (c3 (F := F)) W (Proc.devRef .tc main_v8) = W (Proc.devRef .tc main_v8) := by
  after_results_simp <;> rfl

theorem c4_main_v59 (W : Valuation τ sig (Elt F))
    (h_main_v27 : W (Proc.devRef .tc main_v27) = val_main_v27 (F := F) x0 x1 x2 x3 x4 x5 x6 x7 x8 x10)
    (h_main_v31 : W (Proc.devRef .tc main_v31) = val_main_v31 (F := F) x1 x9 x11)
    (h_main_v8 : W (Proc.devRef .tc main_v8) = val_main_v8 (F := F) x1) :
    after (c4 (F := F)) W (Proc.devRef .tc main_v59) = val_main_v59 (F := F) x0 x1 x2 x3 x4 x5 x6 x7 x8 x9 x10 x11 := by
  after_results_simp
  rw [h_main_v27, h_main_v31, h_main_v8]
  (try simp only [TRef.ofBuf, TRef.toBuf, cast_eq])
  rfl

theorem c4_keep_main_arg12 (W : Valuation τ sig (Elt F)) :
    after (c4 (F := F)) W (Proc.devRef .tc main_arg12) = W (Proc.devRef .tc main_arg12) := by
  after_results_simp <;> rfl

theorem c4_keep_main_arg13 (W : Valuation τ sig (Elt F)) :
    after (c4 (F := F)) W (Proc.devRef .tc main_arg13) = W (Proc.devRef .tc main_arg13) := by
  after_results_simp <;> rfl

theorem c5_main_v63 (W : Valuation τ sig (Elt F))
    (h_main_v59 : W (Proc.devRef .tc main_v59) = val_main_v59 (F := F) x0 x1 x2 x3 x4 x5 x6 x7 x8 x9 x10 x11)
    (h_main_arg12 : W (Proc.devRef .tc main_arg12) = x12)
    (h_main_arg13 : W (Proc.devRef .tc main_arg13) = x13) :
    after (c5 (F := F)) W (Proc.devRef .tc main_v63) = val_main_v63 (F := F) x0 x1 x2 x3 x4 x5 x6 x7 x8 x9 x10 x11 x12 x13 := by
  after_results_simp
  rw [h_main_v59, h_main_arg12, h_main_arg13]
  (try simp only [TRef.ofBuf, TRef.toBuf, cast_eq])
  rfl

theorem after_ops_main_v63 (V : Valuation τ sig (Elt F))
    (hx0 : V (Proc.devRef .tc main_arg0) = x0) (hx1 : V (Proc.devRef .tc main_arg1) = x1) (hx2 : V (Proc.devRef .tc main_arg2) = x2) (hx3 : V (Proc.devRef .tc main_arg3) = x3) (hx4 : V (Proc.devRef .tc main_arg4) = x4) (hx5 : V (Proc.devRef .tc main_arg5) = x5) (hx6 : V (Proc.devRef .tc main_arg6) = x6) (hx7 : V (Proc.devRef .tc main_arg7) = x7) (hx8 : V (Proc.devRef .tc main_arg8) = x8) (hx9 : V (Proc.devRef .tc main_arg9) = x9) (hx10 : V (Proc.devRef .tc main_arg10) = x10) (hx11 : V (Proc.devRef .tc main_arg11) = x11) (hx12 : V (Proc.devRef .tc main_arg12) = x12) (hx13 : V (Proc.devRef .tc main_arg13) = x13) :
    after (ops (F := F)) V (Proc.devRef .tc main_v63) = val_main_v63 (F := F) x0 x1 x2 x3 x4 x5 x6 x7 x8 x9 x10 x11 x12 x13 := by
  have s1_main_v7 := c1_main_v7 x0 x3 V (h_main_arg3 := hx3) (h_main_arg0 := hx0)
  have s1_main_v8 := c1_main_v8 x1 V (h_main_arg1 := hx1)
  have s1_main_v9 := c1_main_v9 x0 x3 V (h_main_arg3 := hx3) (h_main_arg0 := hx0)
  have s1_main_arg2 := (c1_keep_main_arg2 V).trans hx2
  have s1_main_arg4 := (c1_keep_main_arg4 V).trans hx4
  have s1_main_arg5 := (c1_keep_main_arg5 V).trans hx5
  have s1_main_arg6 := (c1_keep_main_arg6 V).trans hx6
  have s1_main_arg7 := (c1_keep_main_arg7 V).trans hx7
  have s1_main_arg8 := (c1_keep_main_arg8 V).trans hx8
  have s1_main_arg9 := (c1_keep_main_arg9 V).trans hx9
  have s1_main_arg10 := (c1_keep_main_arg10 V).trans hx10
  have s1_main_arg11 := (c1_keep_main_arg11 V).trans hx11
  have s1_main_arg12 := (c1_keep_main_arg12 V).trans hx12
  have s1_main_arg13 := (c1_keep_main_arg13 V).trans hx13
  have s2_main_v16 := c2_main_v16 x0 x1 x2 x3 x4 x5 (after c1 V) (h_main_v9 := s1_main_v9) (h_main_v8 := s1_main_v8) (h_main_arg4 := s1_main_arg4) (h_main_arg5 := s1_main_arg5) (h_main_arg2 := s1_main_arg2)
  have s2_main_v17 := c2_main_v17 x0 x3 (after c1 V) (h_main_v7 := s1_main_v7)
  have s2_main_arg6 := (c2_keep_main_arg6 (after c1 V)).trans s1_main_arg6
  have s2_main_arg7 := (c2_keep_main_arg7 (after c1 V)).trans s1_main_arg7
  have s2_main_arg8 := (c2_keep_main_arg8 (after c1 V)).trans s1_main_arg8
  have s2_main_arg9 := (c2_keep_main_arg9 (after c1 V)).trans s1_main_arg9
  have s2_main_arg10 := (c2_keep_main_arg10 (after c1 V)).trans s1_main_arg10
  have s2_main_arg11 := (c2_keep_main_arg11 (after c1 V)).trans s1_main_arg11
  have s2_main_arg12 := (c2_keep_main_arg12 (after c1 V)).trans s1_main_arg12
  have s2_main_arg13 := (c2_keep_main_arg13 (after c1 V)).trans s1_main_arg13
  have s2_main_v8 := (c2_keep_main_v8 (after c1 V)).trans s1_main_v8
  have s3_main_v27 := c3_main_v27 x0 x1 x2 x3 x4 x5 x6 x7 x8 x10 (after c2 (after c1 V)) (h_main_v17 := s2_main_v17) (h_main_v16 := s2_main_v16) (h_main_arg6 := s2_main_arg6) (h_main_arg7 := s2_main_arg7) (h_main_arg8 := s2_main_arg8) (h_main_arg10 := s2_main_arg10)
  have s3_main_v31 := c3_main_v31 x1 x9 x11 (after c2 (after c1 V)) (h_main_v8 := s2_main_v8) (h_main_arg9 := s2_main_arg9) (h_main_arg11 := s2_main_arg11)
  have s3_main_arg12 := (c3_keep_main_arg12 (after c2 (after c1 V))).trans s2_main_arg12
  have s3_main_arg13 := (c3_keep_main_arg13 (after c2 (after c1 V))).trans s2_main_arg13
  have s3_main_v8 := (c3_keep_main_v8 (after c2 (after c1 V))).trans s2_main_v8
  have s4_main_v59 := c4_main_v59 x0 x1 x2 x3 x4 x5 x6 x7 x8 x9 x10 x11 (after c3 (after c2 (after c1 V))) (h_main_v27 := s3_main_v27) (h_main_v31 := s3_main_v31) (h_main_v8 := s3_main_v8)
  have s4_main_arg12 := (c4_keep_main_arg12 (after c3 (after c2 (after c1 V)))).trans s3_main_arg12
  have s4_main_arg13 := (c4_keep_main_arg13 (after c3 (after c2 (after c1 V)))).trans s3_main_arg13
  have s5_main_v63 := c5_main_v63 x0 x1 x2 x3 x4 x5 x6 x7 x8 x9 x10 x11 x12 x13 (after c4 (after c3 (after c2 (after c1 V)))) (h_main_v59 := s4_main_v59) (h_main_arg12 := s4_main_arg12) (h_main_arg13 := s4_main_arg13)
  rw [ops_eq, after_append, after_append, after_append, after_append]
  exact s5_main_v63

set_option maxRecDepth 8192 in
set_option maxHeartbeats 34800000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v63).trans (after_ops_main_v63 _ _ _ _ _ _ _ _ _ _ _ _ _ _ (launchContents m c) rfl rfl rfl rfl rfl rfl rfl rfl rfl rfl rfl rfl rfl rfl),
      (h c main_arg0).trans (by rw [ops_eq, after_append, after_append, after_append, after_append]; after_results_simp <;> rfl),
      (h c main_arg1).trans (by rw [ops_eq, after_append, after_append, after_append, after_append]; after_results_simp <;> rfl),
      (h c main_arg2).trans (by rw [ops_eq, after_append, after_append, after_append, after_append]; after_results_simp <;> rfl),
      (h c main_arg3).trans (by rw [ops_eq, after_append, after_append, after_append, after_append]; after_results_simp <;> rfl),
      (h c main_arg4).trans (by rw [ops_eq, after_append, after_append, after_append, after_append]; after_results_simp <;> rfl),
      (h c main_arg5).trans (by rw [ops_eq, after_append, after_append, after_append, after_append]; after_results_simp <;> rfl),
      (h c main_arg6).trans (by rw [ops_eq, after_append, after_append, after_append, after_append]; after_results_simp <;> rfl),
      (h c main_arg7).trans (by rw [ops_eq, after_append, after_append, after_append, after_append]; after_results_simp <;> rfl),
      (h c main_arg8).trans (by rw [ops_eq, after_append, after_append, after_append, after_append]; after_results_simp <;> rfl),
      (h c main_arg9).trans (by rw [ops_eq, after_append, after_append, after_append, after_append]; after_results_simp <;> rfl),
      (h c main_arg10).trans (by rw [ops_eq, after_append, after_append, after_append, after_append]; after_results_simp <;> rfl),
      (h c main_arg11).trans (by rw [ops_eq, after_append, after_append, after_append, after_append]; after_results_simp <;> rfl),
      (h c main_arg12).trans (by rw [ops_eq, after_append, after_append, after_append, after_append]; after_results_simp <;> rfl),
      (h c main_arg13).trans (by rw [ops_eq, after_append, after_append, after_append, after_append]; after_results_simp <;> rfl)⟩)
    (run_seq scopedRefs_eq scopedSems_eq defs main (fun _ => ops) main_eq (fun _ => ops_sub) m ρ)

end Cert.ReferenceIdeal.RunStages

end
-- ==== Proof.KI.Host.lean ====
import proofs.«163280_j13889924235715_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.ValueLayout
import Idealize.ShloMosaic.Lib.DynamicIndex
import Idealize.ShloMosaic.Lib.Tactic

set_option maxRecDepth 16384

noncomputable section

namespace Cert.KernelIdeal.Hand

open Idealize.ShloMosaic Idealize.ShloMosaic.TcCoe Idealize.ShloMosaic.Tactic
open Idealize.ShloMosaic.ValueIdx
open Cert.KernelIdeal Cert.KernelIdeal.Gen

variable {F : FTy → Type} [FloatOps F]

def lsmK (x : Vec F S1x4096 .f32) : Vec F S1x4096 .f32 :=
  let v0 : Vec F S1 .f32 := Host.reduce FloatOps.maximumf x (constant (F := F) S_ .f32 0xFF800000#32) reducesTo_S1x4096_S1_d1 h_S_
  let v1 : Vec F S1 .f32 := broadcastInDim S1 ![] bcast_S_S1 (constant (F := F) S_ .f32 0xFF800000#32)
  let v2 : Vec F S1 .f32 := maximumf v1 v0
  let v3 : Vec F S1x1 .f32 := broadcastInDim S1x1 ![0] bcast_S1_S1x1_0 v2
  let v4 : Vec F S1x4096 .f32 := broadcastInDim S1x4096 ![0, 1] bcast_S1x1_S1x4096_0_1 v3
  let v5 : Vec F S1x4096 .f32 := subf x v4
  let v6 : Vec F S1x4096 .f32 := Host.exp v5
  let v7 : Vec F S1 .f32 := Host.reduceAdd v6 (constant (F := F) S_ .f32 0x00000000#32) reducesTo_S1x4096_S1_d1 h_S_
  let v8 : Vec F S1x1 .f32 := broadcastInDim S1x1 ![0] bcast_S1_S1x1_0 v7
  let v9 : Vec F S1x1 .f32 := Host.log v8
  let v10 : Vec F S1x4096 .f32 := broadcastInDim S1x4096 ![0, 1] bcast_S1x1_S1x4096_0_1 v9
  subf v5 v10

def gruK (gi gh : Vec F S1x3072 .f32) (h0 : Vec F S1x1024 .f32) : Vec F S1x1024 .f32 :=
  let v14 : Vec F S1x1024 .f32 := extractStridedSlice S1x1024 ![0, 0] gi slices_S1x3072_S1x1024_0_0
  let v15 : Vec F S1x1024 .f32 := extractStridedSlice S1x1024 ![0, 1024] gi slices_S1x3072_S1x1024_0_1024
  let v16 : Vec F S1x1024 .f32 := extractStridedSlice S1x1024 ![0, 2048] gi slices_S1x3072_S1x1024_0_2048
  let v17 : Vec F S1x1024 .f32 := extractStridedSlice S1x1024 ![0, 0] gh slices_S1x3072_S1x1024_0_0
  let v18 : Vec F S1x1024 .f32 := extractStridedSlice S1x1024 ![0, 1024] gh slices_S1x3072_S1x1024_0_1024
  let v19 : Vec F S1x1024 .f32 := extractStridedSlice S1x1024 ![0, 2048] gh slices_S1x3072_S1x1024_0_2048
  let one : Vec F S1x1024 .f32 := broadcastInDim S1x1024 ![] bcast_S_S1x1024 (constant (F := F) S_ .f32 0x3F800000#32)
  let v26 : Vec F S1x1024 .f32 := Host.divf one (addf one (Host.exp (Host.negf (addf v14 v17))))
  let v33 : Vec F S1x1024 .f32 := Host.divf one (addf one (Host.exp (Host.negf (addf v15 v18))))
  let v36 : Vec F S1x1024 .f32 := Host.tanh (addf v16 (mulf v26 v19))
  addf (mulf (subf one v33) v36) (mulf v33 h0)

section Cat
variable {α : Type}

theorem cat_lt {n₁ n₂ n : Nat} (a : (⟨2, ![1, n₁]⟩ : Shape).Idx → α) (b : (⟨2, ![1, n₂]⟩ : Shape).Idx → α)
    (h : Shape.Concatenates [(⟨2, ![1, n₁]⟩ : Shape), ⟨2, ![1, n₂]⟩] ⟨2, ![1, n]⟩ 1) (k : Fin n) (hk : k.val < n₁) :
    concatenate (⟨2, ![1, n]⟩ : Shape) 1 [⟨⟨2, ![1, n₁]⟩, a⟩, ⟨⟨2, ![1, n₂]⟩, b⟩] h (ix2 (0 : Fin 1) k) = a (ix2 (0 : Fin 1) ⟨k.val, hk⟩) :=
  concatenate_pair_apply_left (1 : Fin 2) a b h (ix2 (0 : Fin 1) k) rfl (ix2 (0 : Fin 1) ⟨k.val, hk⟩)
    (fun d => match d with | ⟨0, _⟩ => rfl | ⟨1, _⟩ => rfl)

theorem cat_ge {n₁ n₂ n : Nat} (a : (⟨2, ![1, n₁]⟩ : Shape).Idx → α) (b : (⟨2, ![1, n₂]⟩ : Shape).Idx → α)
    (h : Shape.Concatenates [(⟨2, ![1, n₁]⟩ : Shape), ⟨2, ![1, n₂]⟩] ⟨2, ![1, n]⟩ 1) (k : Fin n) (hk : n₁ ≤ k.val) (hk' : k.val - n₁ < n₂) :
    concatenate (⟨2, ![1, n]⟩ : Shape) 1 [⟨⟨2, ![1, n₁]⟩, a⟩, ⟨⟨2, ![1, n₂]⟩, b⟩] h (ix2 (0 : Fin 1) k) = b (ix2 (0 : Fin 1) ⟨k.val - n₁, hk'⟩) :=
  concatenate_pair_apply_right (1 : Fin 2) a b h (ix2 (0 : Fin 1) k) rfl rfl (ix2 (0 : Fin 1) ⟨k.val - n₁, hk'⟩)
    (fun d hd => match d, hd with | ⟨0, _⟩, _ => rfl | ⟨1, _⟩, hd => absurd rfl hd)
    (by show (k.val - n₁) + n₁ = k.val; omega)

end Cat

theorem tokRow_lt (x : BitVec 32) :
    (min (max (Scalar.select (IntOp.cmpi .slt x 0#32) (IntOp.addi x 50257#32) x).toInt 0) ((50257 - 1 : ℕ) : ℤ)).toNat < 50257 := by
  omega

variable (m : (ℓ : Loc nD τ sig) → Buf (Elt F) ℓ) (outs : Outs (F := F))

abbrev args : List (Ref sig .tc) :=
  [main_arg0, main_arg1, main_arg2, main_arg3, main_arg4, main_arg5, main_arg6, main_arg7, main_arg8, main_arg9, main_arg10,
   main_arg11, main_arg12, main_arg13]

theorem args_unwritten : ∀ r ∈ args, r ∉ hostOps0_W ∧ r ∉ ([main_v7] : List (Ref sig .tc)) ∧ r ∉ hostOps1_W
    ∧ r ∉ ([main_v9] : List (Ref sig .tc)) ∧ r ∉ hostOps2_W ∧ r ∉ ([main_v11] : List (Ref sig .tc))
    ∧ r ∉ ([main_v12] : List (Ref sig .tc)) ∧ r ∉ ([main_v13] : List (Ref sig .tc)) ∧ r ∉ hostOps5_W
    ∧ r ∉ ([main_v44] : List (Ref sig .tc)) ∧ r ∉ hostOps6_W ∧ r ∉ ([main_v47] : List (Ref sig .tc)) := by
  decide

theorem V1_arg (c : Dev nD) (r : Ref sig .tc) (hr : r ∈ args) : V1 m c r = m ((c : Thread nD τ).loc r) :=
  (V1_of m c r (args_unwritten r hr).1).trans rfl

theorem V2_arg (c : Dev nD) (r : Ref sig .tc) (hr : r ∈ args) : V2 m outs c r = m ((c : Thread nD τ).loc r) :=
  (V2_of m outs c r (args_unwritten r hr).2.1).trans (V1_arg m c r hr)

theorem V3_arg (c : Dev nD) (r : Ref sig .tc) (hr : r ∈ args) : V3 m outs c r = m ((c : Thread nD τ).loc r) :=
  (V3_of m outs c r (args_unwritten r hr).2.2.1).trans (V2_arg m outs c r hr)

theorem V4_arg (c : Dev nD) (r : Ref sig .tc) (hr : r ∈ args) : V4 m outs c r = m ((c : Thread nD τ).loc r) :=
  (V4_of m outs c r (args_unwritten r hr).2.2.2.1).trans (V3_arg m outs c r hr)

theorem V5_arg (c : Dev nD) (r : Ref sig .tc) (hr : r ∈ args) : V5 m outs c r = m ((c : Thread nD τ).loc r) :=
  (V5_of m outs c r (args_unwritten r hr).2.2.2.2.1).trans (V4_arg m outs c r hr)

theorem V6_arg (c : Dev nD) (r : Ref sig .tc) (hr : r ∈ args) : V6 m outs c r = m ((c : Thread nD τ).loc r) :=
  (V6_of m outs c r (args_unwritten r hr).2.2.2.2.2.1).trans (V5_arg m outs c r hr)

theorem V7_arg (c : Dev nD) (r : Ref sig .tc) (hr : r ∈ args) : V7 m outs c r = m ((c : Thread nD τ).loc r) :=
  (V7_of m outs c r (args_unwritten r hr).2.2.2.2.2.2.1).trans (V6_arg m outs c r hr)

theorem V8_arg (c : Dev nD) (r : Ref sig .tc) (hr : r ∈ args) : V8 m outs c r = m ((c : Thread nD τ).loc r) :=
  (V8_of m outs c r (args_unwritten r hr).2.2.2.2.2.2.2.1).trans (V7_arg m outs c r hr)

theorem V9_arg (c : Dev nD) (r : Ref sig .tc) (hr : r ∈ args) : V9 m outs c r = m ((c : Thread nD τ).loc r) :=
  (V9_of m outs c r (args_unwritten r hr).2.2.2.2.2.2.2.2.1).trans (V8_arg m outs c r hr)

theorem V10_arg (c : Dev nD) (r : Ref sig .tc) (hr : r ∈ args) : V10 m outs c r = m ((c : Thread nD τ).loc r) :=
  (V10_of m outs c r (args_unwritten r hr).2.2.2.2.2.2.2.2.2.1).trans (V9_arg m outs c r hr)

theorem V2_main_v7 (c : Dev nD) : V2 m outs c main_v7 = outs 2 main_v7 c := by
  simp only [V2, Function.update_self]

theorem V4_main_v9 (c : Dev nD) : V4 m outs c main_v9 = outs 4 main_v9 c := by
  simp only [V4, Function.update_self]

theorem V6_main_v11 (c : Dev nD) : V6 m outs c main_v11 = outs 6 main_v11 c := by
  simp only [V6, Function.update_self]

theorem V7_main_v12 (c : Dev nD) : V7 m outs c main_v12 = outs 7 main_v12 c := by
  simp only [V7, Function.update_self]

theorem V8_main_v13 (c : Dev nD) : V8 m outs c main_v13 = outs 8 main_v13 c := by
  simp only [V8, Function.update_self]

theorem V10_main_v44 (c : Dev nD) : V10 m outs c main_v44 = outs 10 main_v44 c := by
  simp only [V10, Function.update_self]

theorem V12_main_v47 (c : Dev nD) : V12 m outs c main_v47 = outs 12 main_v47 c := by
  simp only [V12, Function.update_self]

theorem V8_main_v12 (c : Dev nD) : V8 m outs c main_v12 = outs 7 main_v12 c :=
  (V8_of m outs c main_v12 (by decide)).trans (V7_main_v12 m outs c)

theorem V12_main_v44 (c : Dev nD) : V12 m outs c main_v44 = outs 10 main_v44 c :=
  (V12_of m outs c main_v44 (by decide)).trans <| (V11_of m outs c main_v44 (by decide)).trans (V10_main_v44 m outs c)

theorem V4_main_v4 (c : Dev nD) : V4 m outs c main_v4 = V1 m c main_v4 :=
  (V4_of m outs c main_v4 (by decide)).trans <| (V3_of m outs c main_v4 (by decide)).trans (V2_of m outs c main_v4 (by decide))

theorem V7_main_v5 (c : Dev nD) : V7 m outs c main_v5 = V1 m c main_v5 :=
  (V7_of m outs c main_v5 (by decide)).trans <| (V6_of m outs c main_v5 (by decide)).trans <| (V5_of m outs c main_v5 (by decide)).trans <|
    (V4_of m outs c main_v5 (by decide)).trans <| (V3_of m outs c main_v5 (by decide)).trans (V2_of m outs c main_v5 (by decide))

theorem V8_main_v5 (c : Dev nD) : V8 m outs c main_v5 = V1 m c main_v5 :=
  (V8_of m outs c main_v5 (by decide)).trans (V7_main_v5 m outs c)

theorem V10_main_v41 (c : Dev nD) : V10 m outs c main_v41 = V9 m outs c main_v41 :=
  V10_of m outs c main_v41 (by decide)

theorem V11_main_v41 (c : Dev nD) : V11 m outs c main_v41 = V9 m outs c main_v41 :=
  (V11_of m outs c main_v41 (by decide)).trans (V10_main_v41 m outs c)

theorem V3_main_v8 (c : Dev nD) :
    (V3 m outs c main_v8 : Vec F S1x4096 .f32) = lsmK (V2 m outs c main_v7 : Vec F S1x4096 .f32) := by
  dsimp only [V3, hostOps1]
  after_results
  simp only [StableHlo.TRef.ofBuf, StableHlo.TRef.toBuf, cast_eq]
  rfl

theorem V9_main_v41 (c : Dev nD) :
    (V9 m outs c main_v41 : Vec F S1x1024 .f32)
      = gruK (V8 m outs c main_v12 : Vec F S1x3072 .f32) (V8 m outs c main_v13 : Vec F S1x3072 .f32) (V8 m outs c main_v5 : Vec F S1x1024 .f32) := by
  dsimp only [V9, hostOps5]
  after_results_simp
  rfl

theorem V1_main_v4_apply (c : Dev nD) (k : Fin 1024) :
    (V1 m c main_v4 : Vec F S1x1024 .f32) (ix2 (0 : Fin 1) k)
      = (m ((c : Thread nD τ).loc main_arg3) : Vec F S50257x1024 .f32)
          (ix2 (⟨(min (max (Scalar.select (IntOp.cmpi .slt ((m ((c : Thread nD τ).loc main_arg0) : Vec F S1 .i32) (ix1 (0 : Fin 1))) 0#32)
                  (IntOp.addi ((m ((c : Thread nD τ).loc main_arg0) : Vec F S1 .i32) (ix1 (0 : Fin 1))) 50257#32)
                  ((m ((c : Thread nD τ).loc main_arg0) : Vec F S1 .i32) (ix1 (0 : Fin 1)))).toInt 0) ((50257 - 1 : ℕ) : ℤ)).toNat, tokRow_lt _⟩ : Fin 50257) k) := by
  dsimp only [V1, hostOps0]
  after_results
  refine (congrFun (Host.dynamicSlice_eq_extractStridedSlice_of_clamp S1x1024 _ _ sliceFits_S50257x1024_S1x1024
    ![(min (max (Scalar.select (IntOp.cmpi .slt ((m ((c : Thread nD τ).loc main_arg0) : Vec F S1 .i32) (ix1 (0 : Fin 1))) 0#32)
                  (IntOp.addi ((m ((c : Thread nD τ).loc main_arg0) : Vec F S1 .i32) (ix1 (0 : Fin 1))) 50257#32)
                  ((m ((c : Thread nD τ).loc main_arg0) : Vec F S1 .i32) (ix1 (0 : Fin 1)))).toInt 0) ((50257 - 1 : ℕ) : ℤ)).toNat, 0] ?hadj ?h') (ix2 (0 : Fin 1) k)).trans ?_
  case h' =>
    refine ⟨rfl, fun a => ?_⟩
    match a with
    | ⟨0, _⟩ => show (min (max _ 0) ((50257 - 1 : ℕ) : ℤ)).toNat + 1 ≤ 50257; omega
    | ⟨1, _⟩ => show 0 + 1024 ≤ 1024; omega
  case hadj =>
    intro a
    match a with
    | ⟨1, _⟩ => show (min (max _ 0) ((1024 - 1024 : ℕ) : ℤ)).toNat = 0; omega
    | ⟨0, _⟩ =>
      simp only [Matrix.cons_val_zero']
      after_results_simp

      have hx : shapeCast S_ (m ((c : Thread nD τ).loc main_arg0) : Vec F S1 .i32) shapeCasts_S1_S_ (Shape.Idx.first h_S_)
          = (m ((c : Thread nD τ).loc main_arg0) : Vec F S1 .i32) (ix1 (0 : Fin 1)) :=
        shapeCast_apply (s := S1) (t := S_) _ _ _ _ (by
          have h1 : (S_.rowMajor (Shape.Idx.first h_S_)).val < 1 := (S_.rowMajor (Shape.Idx.first h_S_)).isLt
          rw [Shape.rowMajor_val_one]
          show (0 : ℕ) = _
          omega)
      exact congrArg (fun z : BitVec 32 => (min (max (Scalar.select (IntOp.cmpi .slt z 0#32) (IntOp.addi z 50257#32) z).toInt 0) ((50257 - 1 : ℕ) : ℤ)).toNat) hx
  · exact slice2_axis0_apply _ _ _ (0 : Fin 1) k _ (by simp)

theorem V1_main_v5_apply (c : Dev nD) (k : Fin 1024) :
    (V1 m c main_v5 : Vec F S1x1024 .f32) (ix2 (0 : Fin 1) k)
      = (m ((c : Thread nD τ).loc main_arg1) : Vec F S1x1x1024 .f32) (ix3 (0 : Fin 1) (0 : Fin 1) k) := by
  have e : (V1 m c main_v5 : Vec F S1x1024 .f32)
      = shapeCast S1x1024 (m ((c : Thread nD τ).loc main_arg1) : Vec F S1x1x1024 .f32) shapeCasts_S1x1x1024_S1x1024 := by
    dsimp only [V1, hostOps0]; after_results <;> rfl
  rw [e]
  exact shapeCast_apply (s := S1x1x1024) (t := S1x1024) _ _ (ix2 (0 : Fin 1) k) (ix3 (0 : Fin 1) (0 : Fin 1) k)
    (by rw [Shape.rowMajor_val_three, Shape.rowMajor_val_two]; show (0 * 1 + 0) * 1024 + k.val = 0 * 1024 + k.val; omega)

theorem V1_main_v6 (c : Dev nD) :
    (V1 m c main_v6 : Vec F S1x2048 .f32)
      = concatenate S1x2048 1 [⟨S1x1024, (V1 m c main_v4 : Vec F S1x1024 .f32)⟩, ⟨S1x1024, (V1 m c main_v5 : Vec F S1x1024 .f32)⟩] concatenates_S1x1024_S1x1024_S1x2048_d1 := by
  dsimp only [V1, hostOps0]; after_results <;> rfl

theorem V1_main_v6_lt (c : Dev nD) (k : Fin 2048) (hk : k.val < 1024) :
    (V1 m c main_v6 : Vec F S1x2048 .f32) (ix2 (0 : Fin 1) k) = (V1 m c main_v4 : Vec F S1x1024 .f32) (ix2 (0 : Fin 1) ⟨k.val, hk⟩) :=
  (congrFun (V1_main_v6 m c) _).trans (cat_lt _ _ _ k hk)

theorem V1_main_v6_ge (c : Dev nD) (k : Fin 2048) (hk : 1024 ≤ k.val) :
    (V1 m c main_v6 : Vec F S1x2048 .f32) (ix2 (0 : Fin 1) k) = (V1 m c main_v5 : Vec F S1x1024 .f32) (ix2 (0 : Fin 1) ⟨k.val - 1024, by have := k.isLt; omega⟩) :=
  (congrFun (V1_main_v6 m c) _).trans (cat_ge _ _ _ k hk _)

theorem V5_main_v10 (c : Dev nD) :
    (V5 m outs c main_v10 : Vec F S1x2048 .f32)
      = concatenate S1x2048 1 [⟨S1x1024, (V4 m outs c main_v4 : Vec F S1x1024 .f32)⟩, ⟨S1x1024, (V4 m outs c main_v9 : Vec F S1x1024 .f32)⟩] concatenates_S1x1024_S1x1024_S1x2048_d1 := by
  dsimp only [V5, hostOps2]; after_results <;> rfl

theorem V5_main_v10_lt (c : Dev nD) (k : Fin 2048) (hk : k.val < 1024) :
    (V5 m outs c main_v10 : Vec F S1x2048 .f32) (ix2 (0 : Fin 1) k) = (V4 m outs c main_v4 : Vec F S1x1024 .f32) (ix2 (0 : Fin 1) ⟨k.val, hk⟩) :=
  (congrFun (V5_main_v10 m outs c) _).trans (cat_lt _ _ _ k hk)

theorem V5_main_v10_ge (c : Dev nD) (k : Fin 2048) (hk : 1024 ≤ k.val) :
    (V5 m outs c main_v10 : Vec F S1x2048 .f32) (ix2 (0 : Fin 1) k) = (V4 m outs c main_v9 : Vec F S1x1024 .f32) (ix2 (0 : Fin 1) ⟨k.val - 1024, by have := k.isLt; omega⟩) :=
  (congrFun (V5_main_v10 m outs c) _).trans (cat_ge _ _ _ k hk _)

theorem V13_main_v48 (c : Dev nD) :
    (V13 m outs c main_v48 : Vec F S1x50257 .f32)
      = concatenate S1x50257 1 [⟨S1x49152, (V12 m outs c main_v44 : Vec F S1x49152 .f32)⟩, ⟨S1x1105, (V12 m outs c main_v47 : Vec F S1x1105 .f32)⟩] concatenates_S1x49152_S1x1105_S1x50257_d1 := by
  dsimp only [V13, hostOps7]; after_results <;> rfl

theorem V13_main_v48_lt (c : Dev nD) (q : Fin 50257) (hq : q.val < 49152) :
    (V13 m outs c main_v48 : Vec F S1x50257 .f32) (ix2 (0 : Fin 1) q) = (V12 m outs c main_v44 : Vec F S1x49152 .f32) (ix2 (0 : Fin 1) ⟨q.val, hq⟩) :=
  (congrFun (V13_main_v48 m outs c) _).trans (cat_lt _ _ _ q hq)

theorem V13_main_v48_ge (c : Dev nD) (q : Fin 50257) (hq : 49152 ≤ q.val) :
    (V13 m outs c main_v48 : Vec F S1x50257 .f32) (ix2 (0 : Fin 1) q) = (V12 m outs c main_v47 : Vec F S1x1105 .f32) (ix2 (0 : Fin 1) ⟨q.val - 49152, by have := q.isLt; omega⟩) :=
  (congrFun (V13_main_v48 m outs c) _).trans (cat_ge _ _ _ q hq _)

theorem V9_main_v42_apply (c : Dev nD) (q : Fin 49152) (k : Fin 1024) :
    (V9 m outs c main_v42 : Vec F S49152x1024 .f32) (ix2 q k)
      = (m ((c : Thread nD τ).loc main_arg12) : Vec F S50257x1024 .f32) (ix2 (⟨q.val, by have := q.isLt; omega⟩ : Fin 50257) k) := by
  have e : (V9 m outs c main_v42 : Vec F S49152x1024 .f32)
      = extractStridedSlice S49152x1024 ![0, 0] (m ((c : Thread nD τ).loc main_arg12) : Vec F S50257x1024 .f32) slices_S50257x1024_S49152x1024_0_0 := by
    rw [← V8_arg m outs c main_arg12 (by decide)]; dsimp only [V9, hostOps5]; after_results_simp <;> rfl
  rw [e]
  exact slice2_axis0_apply 0 _ _ q k _ (by show q.val = 0 + q.val; omega)

theorem V9_main_v43_apply (c : Dev nD) (q : Fin 49152) :
    (V9 m outs c main_v43 : Vec F S49152 .f32) (ix1 q)
      = (m ((c : Thread nD τ).loc main_arg13) : Vec F S50257 .f32) (ix1 (⟨q.val, by have := q.isLt; omega⟩ : Fin 50257)) := by
  have e : (V9 m outs c main_v43 : Vec F S49152 .f32)
      = extractStridedSlice S49152 ![0] (m ((c : Thread nD τ).loc main_arg13) : Vec F S50257 .f32) slices_S50257_S49152_0 := by
    rw [← V8_arg m outs c main_arg13 (by decide)]; dsimp only [V9, hostOps5]; after_results_simp <;> rfl
  rw [e]
  exact extractStridedSlice_apply _ _ _ _ _ (fun a => match a with | ⟨0, _⟩ => by show q.val = 0 + q.val; omega)

theorem V11_main_v45_apply (c : Dev nD) (q : Fin 1105) (k : Fin 1024) :
    (V11 m outs c main_v45 : Vec F S1105x1024 .f32) (ix2 q k)
      = (m ((c : Thread nD τ).loc main_arg12) : Vec F S50257x1024 .f32) (ix2 (⟨49152 + q.val, by have := q.isLt; omega⟩ : Fin 50257) k) := by
  have e : (V11 m outs c main_v45 : Vec F S1105x1024 .f32)
      = extractStridedSlice S1105x1024 ![49152, 0] (m ((c : Thread nD τ).loc main_arg12) : Vec F S50257x1024 .f32) slices_S50257x1024_S1105x1024_49152_0 := by
    rw [← V10_arg m outs c main_arg12 (by decide)]; dsimp only [V11, hostOps6]; after_results <;> rfl
  rw [e]
  exact slice2_axis0_apply 49152 _ _ q k _ rfl

theorem V11_main_v46_apply (c : Dev nD) (q : Fin 1105) :
    (V11 m outs c main_v46 : Vec F S1105 .f32) (ix1 q)
      = (m ((c : Thread nD τ).loc main_arg13) : Vec F S50257 .f32) (ix1 (⟨49152 + q.val, by have := q.isLt; omega⟩ : Fin 50257)) := by
  have e : (V11 m outs c main_v46 : Vec F S1105 .f32)
      = extractStridedSlice S1105 ![49152] (m ((c : Thread nD τ).loc main_arg13) : Vec F S50257 .f32) slices_S50257_S1105_49152 := by
    rw [← V10_arg m outs c main_arg13 (by decide)]; dsimp only [V11, hostOps6]; after_results <;> rfl
  rw [e]
  exact extractStridedSlice_apply _ _ _ _ _ (fun a => match a with | ⟨0, _⟩ => rfl)

theorem V1_main_v6_row (c : Dev nD) (k : Fin 2048) (hk : k.val < 1024) :
    (V1 m c main_v6 : Vec F S1x2048 .f32) (ix2 (0 : Fin 1) k)
      = (m ((c : Thread nD τ).loc main_arg3) : Vec F S50257x1024 .f32)
          (ix2 (⟨(min (max (Scalar.select (IntOp.cmpi .slt ((m ((c : Thread nD τ).loc main_arg0) : Vec F S1 .i32) (ix1 (0 : Fin 1))) 0#32)
                  (IntOp.addi ((m ((c : Thread nD τ).loc main_arg0) : Vec F S1 .i32) (ix1 (0 : Fin 1))) 50257#32)
                  ((m ((c : Thread nD τ).loc main_arg0) : Vec F S1 .i32) (ix1 (0 : Fin 1)))).toInt 0) ((50257 - 1 : ℕ) : ℤ)).toNat, tokRow_lt _⟩ : Fin 50257)
            (⟨k.val, hk⟩ : Fin 1024)) :=
  (V1_main_v6_lt m c k hk).trans (V1_main_v4_apply m c ⟨k.val, hk⟩)

theorem V1_main_v6_hid (c : Dev nD) (k : Fin 2048) (hk : 1024 ≤ k.val) :
    (V1 m c main_v6 : Vec F S1x2048 .f32) (ix2 (0 : Fin 1) k)
      = (m ((c : Thread nD τ).loc main_arg1) : Vec F S1x1x1024 .f32) (ix3 (0 : Fin 1) (0 : Fin 1) (⟨k.val - 1024, by have := k.isLt; omega⟩ : Fin 1024)) :=
  (V1_main_v6_ge m c k hk).trans (V1_main_v5_apply m c _)

theorem V5_main_v10_row (c : Dev nD) (k : Fin 2048) (hk : k.val < 1024) :
    (V5 m outs c main_v10 : Vec F S1x2048 .f32) (ix2 (0 : Fin 1) k)
      = (m ((c : Thread nD τ).loc main_arg3) : Vec F S50257x1024 .f32)
          (ix2 (⟨(min (max (Scalar.select (IntOp.cmpi .slt ((m ((c : Thread nD τ).loc main_arg0) : Vec F S1 .i32) (ix1 (0 : Fin 1))) 0#32)
                  (IntOp.addi ((m ((c : Thread nD τ).loc main_arg0) : Vec F S1 .i32) (ix1 (0 : Fin 1))) 50257#32)
                  ((m ((c : Thread nD τ).loc main_arg0) : Vec F S1 .i32) (ix1 (0 : Fin 1)))).toInt 0) ((50257 - 1 : ℕ) : ℤ)).toNat, tokRow_lt _⟩ : Fin 50257)
            (⟨k.val, hk⟩ : Fin 1024)) :=
  (V5_main_v10_lt m outs c k hk).trans <|
    (congrFun (V4_main_v4 m outs c : (V4 m outs c main_v4 : Vec F S1x1024 .f32) = V1 m c main_v4) _).trans (V1_main_v4_apply m c ⟨k.val, hk⟩)

theorem V5_main_v10_att (c : Dev nD) (k : Fin 2048) (hk : 1024 ≤ k.val) :
    (V5 m outs c main_v10 : Vec F S1x2048 .f32) (ix2 (0 : Fin 1) k)
      = (outs 4 main_v9 c : Vec F S1x1024 .f32) (ix2 (0 : Fin 1) (⟨k.val - 1024, by have := k.isLt; omega⟩ : Fin 1024)) :=
  (V5_main_v10_ge m outs c k hk).trans
    (congrFun (V4_main_v9 m outs c : (V4 m outs c main_v9 : Vec F S1x1024 .f32) = outs 4 main_v9 c) _)

theorem V13_main_v48_lo (c : Dev nD) (q : Fin 50257) (hq : q.val < 49152) :
    (V13 m outs c main_v48 : Vec F S1x50257 .f32) (ix2 (0 : Fin 1) q)
      = (outs 10 main_v44 c : Vec F S1x49152 .f32) (ix2 (0 : Fin 1) (⟨q.val, hq⟩ : Fin 49152)) :=
  (V13_main_v48_lt m outs c q hq).trans
    (congrFun (V12_main_v44 m outs c : (V12 m outs c main_v44 : Vec F S1x49152 .f32) = outs 10 main_v44 c) _)

theorem V13_main_v48_hi (c : Dev nD) (q : Fin 50257) (hq : 49152 ≤ q.val) :
    (V13 m outs c main_v48 : Vec F S1x50257 .f32) (ix2 (0 : Fin 1) q)
      = (outs 12 main_v47 c : Vec F S1x1105 .f32) (ix2 (0 : Fin 1) (⟨q.val - 49152, by have := q.isLt; omega⟩ : Fin 1105)) :=
  (V13_main_v48_ge m outs c q hq).trans
    (congrFun (V12_main_v47 m outs c : (V12 m outs c main_v47 : Vec F S1x1105 .f32) = outs 12 main_v47 c) _)

theorem V3_main_v8_outs (c : Dev nD) :
    (V3 m outs c main_v8 : Vec F S1x4096 .f32) = lsmK (outs 2 main_v7 c : Vec F S1x4096 .f32) :=
  (V3_main_v8 m outs c).trans (congrArg lsmK (V2_main_v7 m outs c : (V2 m outs c main_v7 : Vec F S1x4096 .f32) = outs 2 main_v7 c))

theorem V9_main_v41_outs (c : Dev nD) :
    (V9 m outs c main_v41 : Vec F S1x1024 .f32)
      = gruK (outs 7 main_v12 c : Vec F S1x3072 .f32) (outs 8 main_v13 c : Vec F S1x3072 .f32) (V1 m c main_v5 : Vec F S1x1024 .f32) := by
  rw [V9_main_v41 m outs c]
  exact congr (congr (congrArg gruK (V8_main_v12 m outs c : (V8 m outs c main_v12 : Vec F S1x3072 .f32) = outs 7 main_v12 c))
    (V8_main_v13 m outs c : (V8 m outs c main_v13 : Vec F S1x3072 .f32) = outs 8 main_v13 c))
    (V8_main_v5 m outs c : (V8 m outs c main_v5 : Vec F S1x1024 .f32) = V1 m c main_v5)

end Cert.KernelIdeal.Hand

end
-- ==== Proof.LibTransDot.lean ====
import Idealize.ShloMosaic.PureOps.Ideal.Laws
import Idealize.ShloMosaic.Lib.ValueIdx

noncomputable section

namespace Idealize.ShloMosaic.TransDot

open Idealize.ShloMosaic Idealize.ShloMosaic.ValueIdx

theorem hzero2 : (![0, 0] : Fin 2 → Nat) = fun _ => 0 := funext fun a => match a with | ⟨0, _⟩ => rfl | ⟨1, _⟩ => rfl
theorem hzero1 : (![0] : Fin 1 → Nat) = fun _ => 0 := funext fun a => match a with | ⟨0, _⟩ => rfl

variable {R K C : ℕ}

structure IsTrans (d : DotDims ⟨2, ![R, K]⟩ ⟨2, ![C, K]⟩ ⟨2, ![R, C]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![R, K]⟩ ⟨2, ![C, K]⟩ ⟨2, ![R, C]⟩}

private theorem coord_congr {s : Shape} (j : s.Idx) (a b : Nat) (ha : a < s.rank) (hb : b < s.rank) (e : a = b) :
    (j ⟨a, ha⟩).val = (j ⟨b, hb⟩).val := by subst e; rfl

theorem lhs_row (h : IsTrans d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

theorem rhs_row (h : IsTrans d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsTrans d) : d.contr.rank = 1 := by
  rw [d.rank_contr, h.lc]; rfl

theorem contr_size (h : IsTrans d) : d.contr.size ⟨0, by rw [contr_rank h]; exact Nat.one_pos⟩ = K := by
  rw [d.size_contr 0 (by rw [h.lc]; exact Nat.one_pos)]
  simp [h.lc]

theorem sum_apply (h : IsTrans d) {φ₁ φ₂ : FTy} (l : FVec Ideal ⟨2, ![R, K]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 p k) * r (ix2 q k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 q k := funext fun a => Fin.ext (by
    match a with
    | ⟨0, _⟩ => exact rhs_row h _ _
    | ⟨1, _⟩ => exact (d.rhsIdx_val_of_single h.rc _ _).trans hk)
  rw [el, er]

/-- Both operands are contracted over their second axis, so the entry (p, q) is the sum over k of l(p, k) · r(q, k). -/
theorem matmul_zero_apply (h : IsTrans d) {φ₁ φ₂ : FTy} (prec : Option ContractPrecision)
    (l : FVec Ideal ⟨2, ![R, K]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 p k) * r (ix2 q k) := by
  rw [Ideal.matmul_constant_zero_apply]
  exact sum_apply h l r p q

theorem dotGeneral_apply (h : IsTrans d) {φ₁ φ₂ : FTy} (prec : Option ContractPrecision) (sched : HostSchedule)
    (l : FVec Ideal ⟨2, ![R, K]⟩ φ₁) (r : FVec Ideal ⟨2, ![C, K]⟩ φ₂) (p : Fin R) (q : Fin C) :
    FloatOps.dotGeneral d prec sched l r (ix2 p q) = ∑ k : Fin K, l (ix2 p k) * r (ix2 q k) := by
  rw [Ideal.dotGeneral_apply]
  exact sum_apply h l r p q

end Idealize.ShloMosaic.TransDot

end
-- ==== Proof.KI.Val0.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«163280_j13889924235715_1_alg».proof.Proof.LibTransDot
import proofs.«163280_j13889924235715_1_alg».proof.Proof.KI.Reg0

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

section Region

variable (V : (c : Dev nD) → (b : Ref sig .tc) → Buf (Elt Ideal) ((c : Thread nD τ).loc b))

theorem isTrans0 : TransDot.IsTrans dot_S1x2048_S1024x2048_S1x1024_1_1_0_0_n_n := ⟨rfl, rfl, rfl, rfl, rfl, rfl⟩

theorem pay0_apply (x : Vec Ideal S1x2048 .f32) (W : Vec Ideal S1024x2048 .f32) (b : Vec Ideal S1024 .f32) (q : Fin 1024) :
    k0_pay1 (F := Ideal) x W b (ix2 0 q) =
      (∑ k : Fin 2048, x (ix2 0 k) * W (ix2 q k)) + b (ix1 q) := by
  unfold k0_pay1
  simp only [shapeCast_self]
  rw [addf_apply]
  refine congrArg₂ (· + ·) (TransDot.matmul_zero_apply isTrans0 none x W 0 q) ?_
  refine (shapeCast_addUnit_apply ![1024] b shapeCasts_S1024_S1x1024 (ix2 0 q)).trans (congrArg b ?_)
  funext a
  match a with
  | ⟨0, _⟩ => rfl

theorem out0_3_eq (y0 : Vec Ideal S1x2048 .f32) (y1 : Vec Ideal S1024x2048 .f32) (y2 : Vec Ideal S1024 .f32) :
    out0_3 (F := Ideal) y0 y1 y2 = k0_pay1 y0 y1 y2 := by
  unfold out0_3
  rw [View.canon_unit_zero TransDot.hzero2]
  simp only [View.ld_unit_zero (S := S1x2048) TransDot.hzero2, View.ld_unit_zero (S := S1024x2048) TransDot.hzero2, View.ld_unit_zero (S := S1024) TransDot.hzero1]

theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = t.val :=
  (by decide +kernel : ∀ t : Fin grid0.N, _)

def lin0 (x : S1x2048.Idx → EReal) (W : S4096x2048.Idx → EReal) (b : S4096.Idx → EReal) : S1x4096.Idx → EReal := fun i =>
      (∑ k : Fin 2048, x (ix2 0 k) * W (ix2 ⟨(i 1).val, idx2_lt1 i⟩ k)) + b (ix1 ⟨(i 1).val, idx2_lt1 i⟩)

theorem lin0_apply (x : S1x2048.Idx → EReal) (W : S4096x2048.Idx → EReal) (b : S4096.Idx → EReal) (q : Fin 4096) :
    lin0 x W b (ix2 0 q) =
      (∑ k : Fin 2048, x (ix2 0 k) * W (ix2 q k)) + b (ix1 q) := rfl

theorem iblk0_0_apply (c : Dev nD) (t : Fin cfg0.N) (k : Fin 2048) :
    (iblk0 (F := Ideal) V c 0 t : Vec Ideal S1x2048 .f32) (ix2 0 k) = (V c main_v6 : S1x2048.Idx → EReal) (ix2 0 k) := by
  obtain ⟨e00, e01, -⟩ := idx_facts0 t
  unfold iblk0
  rw [View.read_apply]
  show (V c main_v6 : S1x2048.Idx → EReal) _ = _
  congr 1
  funext a
  apply Fin.ext
  match a with
  | ⟨0, _⟩ => show win0_0.index t 0 * 1 + 1 * 0 = 0; rw [e00]
  | ⟨1, _⟩ => show win0_0.index t 1 * 2048 + 1 * k.val = k.val; rw [e01]; omega

theorem iblk0_1_apply (c : Dev nD) (t : Fin cfg0.N) (q : Fin 1024) (k : Fin 2048) (r : Fin 4096) (hr : r.val = 1024 * t.val + q.val) :
    (iblk0 (F := Ideal) V c 1 t : Vec Ideal S1024x2048 .f32) (ix2 q k) = (V c main_arg4 : S4096x2048.Idx → EReal) (ix2 r k) := by
  obtain ⟨-, -, e10, e11, -⟩ := idx_facts0 t
  unfold iblk0
  rw [View.read_apply]
  show (V c main_arg4 : S4096x2048.Idx → EReal) _ = _
  congr 1
  funext a
  apply Fin.ext
  match a with
  | ⟨0, _⟩ => show win0_1.index t 0 * 1024 + 1 * q.val = r.val; rw [e10, hr]; omega
  | ⟨1, _⟩ => show win0_1.index t 1 * 2048 + 1 * k.val = k.val; rw [e11]; omega

theorem iblk0_2_apply (c : Dev nD) (t : Fin cfg0.N) (q : Fin 1024) (r : Fin 4096) (hr : r.val = 1024 * t.val + q.val) :
    (iblk0 (F := Ideal) V c 2 t : Vec Ideal S1024 .f32) (ix1 q) = (V c main_arg5 : S4096.Idx → EReal) (ix1 r) := by
  obtain ⟨-, -, -, -, e20, -⟩ := idx_facts0 t
  unfold iblk0
  rw [View.read_apply]
  show (V c main_arg5 : S4096.Idx → EReal) _ = _
  congr 1
  funext a
  apply Fin.ext
  match a with
  | ⟨0, _⟩ => show win0_2.index t 0 * 1024 + 1 * q.val = r.val; rw [e20, hr]; omega

theorem flushed0_3_eq (c : Dev nD) (t : Fin cfg0.N) :
    (dat0 (F := Ideal) V c).flushed 3 t
      = ((cfg0.win 3).blk t).view.read (Elt Ideal) (lin0 (V c main_v6) (V c main_arg4) (V c main_arg5)) := by
  show (cfg0.win 3).cut (grid0.coords t) ((dat0 V c).after 3 t) = _
  rw [after0_3, out0_3_eq]
  obtain ⟨-, -, -, -, -, e30, e31⟩ := idx_facts0 t
  refine funext fun (j : S1x1024.Idx) => ?_
  obtain ⟨p, q, rfl⟩ : ∃ (p : Fin 1) (q : Fin 1024), j = ix2 p q := ⟨j 0, j 1, eq_ix2 j⟩
  obtain rfl : p = 0 := Subsingleton.elim p 0
  show k0_pay1 (F := Ideal) (iblk0 V c 0 t) (iblk0 V c 1 t) (iblk0 V c 2 t) (ix2 0 q)
    = lin0 (V c main_v6) (V c main_arg4) (V c main_arg5) (((cfg0.win 3).blk t).view.emb (ix2 0 q))
  refine (pay0_apply _ _ _ q).trans ?_
  have hr : ((((cfg0.win 3).blk t).view.emb (ix2 (0 : Fin 1) q) : S1x4096.Idx) 1).val = 1024 * t.val + q.val := by
    show win0_3.index t 1 * 1024 + 1 * q.val = _
    rw [e31]; omega
  unfold lin0
  refine congrArg₂ (· + ·) (Finset.sum_congr rfl fun k _ => ?_) ?_
  · exact congrArg₂ (· * ·) (iblk0_0_apply V c t k) (iblk0_1_apply V c t q k _ hr)
  · exact iblk0_2_apply V c t q _ hr

theorem mem_blk0_3 (t : Fin cfg0.N) (i : S1x4096.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v7).slice (win0_3.rect t)).set ↔ _
  rw [View.set_slice_whole, Rect.mem_set_unit]
  exact Iff.rfl

theorem covered0_3 (i : S1x4096.Idx) : ∃ t : Fin cfg0.N, (cfg0.win 3).flush t = true ∧ i ∈ ((cfg0.win 3).blk t).view.set := by
  have hi0 : (i 0).val < 1 := idx2_lt0 i
  have hi1 : (i 1).val < 4096 := idx2_lt1 i
  have hN : cfg0.N = 4 := N_0
  refine ⟨⟨(i 1).val / 1024, by rw [hN]; omega⟩, flush0_3 _, ?_⟩
  rw [mem_blk0_3]
  obtain ⟨-, -, -, -, -, e30, e31⟩ := idx_facts0 ⟨(i 1).val / 1024, by rw [hN]; omega⟩
  intro a
  match a with
  | ⟨0, _⟩ => show win0_3.index _ (0 : Fin 2) * 1 ≤ (i 0).val ∧ (i 0).val < win0_3.index _ (0 : Fin 2) * 1 + 1; rw [e30]; omega
  | ⟨1, _⟩ => show win0_3.index _ (1 : Fin 2) * 1024 ≤ (i 1).val ∧ (i 1).val < win0_3.index _ (1 : Fin 2) * 1024 + 1024; rw [e31]; show (i 1).val / 1024 * 1024 ≤ _ ∧ _ < (i 1).val / 1024 * 1024 + 1024; omega

theorem final0 (c : Dev nD) :
    (dat0 (F := Ideal) V c).arrAt 3 cfg0.N = lin0 (V c main_v6) (V c main_arg4) (V c main_arg5) :=
  (dat0 V c).arrAt_eq_of_cover 3 _ (fun t _ => flushed0_3_eq V c t) covered0_3

abbrev x0 (c : Dev nD) : FVec Ideal S1x2048 .f32 := V c main_v6

abbrev w0 (c : Dev nD) : FVec Ideal S4096x2048 .f32 := V c main_arg4

abbrev b0 (c : Dev nD) : FVec Ideal S4096 .f32 := V c main_arg5

/-- Column q of the result is the row x against row q of W, plus the bias at q. -/
theorem final0_apply (c : Dev nD) (q : Fin 4096) :
    (dat0 (F := Ideal) V c).arrAt 3 cfg0.N (ix2 0 q) =
      (∑ k : Fin 2048, x0 V c (ix2 0 k) * w0 V c (ix2 q k)) + b0 V c (ix1 q) := by
  rw [final0]
  exact lin0_apply _ _ _ q

end Region

end Cert.KernelIdeal.Hand

end
-- ==== Proof.KI.Val1.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import proofs.«163280_j13889924235715_1_alg».proof.Proof.LibPlainDot
import proofs.«163280_j13889924235715_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

local notation "𝕄" => MT nD τ sig Unit (Elt F) ℕ (UR sig nD τ) ℕ

theorem plain1 : PlainDot.IsPlain dot_S1x1024_S1024x1024_S1x1024_1_0_0_1_n_n := ⟨rfl, rfl, rfl, rfl, rfl, rfl⟩

theorem pay1_apply (q : Fin 1024) : k1_pay1 (F := Ideal) (ix2 (0 : Fin 1) q) = 0 := by
  unfold k1_pay1
  rw [shapeCast_self]
  show Ideal.ofBits .f32 0x00000000#32 = 0
  exact Ideal.ofBits_zero_f32

theorem acc_step_apply (acc x : FVec Ideal S1x1024 .f32) (W : FVec Ideal S1024x1024 .f32) (q : Fin 1024) :
    k1_pay2 (F := Ideal) acc x W (ix2 (0 : Fin 1) q) = acc (ix2 0 q) + ∑ k : Fin 1024, x (ix2 0 k) * W (ix2 k q) := by
  unfold k1_pay2
  rw [shapeCast_self, shapeCast_self, addf_apply]
  exact congrArg (acc (ix2 0 q) + ·) (PlainDot.matmul_zero_apply plain1 none x W 0 q)

def blockEquiv : Fin 4 × Fin 1024 ≃ Fin 4096 where
  toFun p := ⟨1024 * p.1.val + p.2.val, by have := p.1.isLt; have := p.2.isLt; omega⟩
  invFun k := (⟨k.val / 1024, by have := k.isLt; omega⟩, ⟨k.val % 1024, Nat.mod_lt _ (by decide)⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv k := Fin.ext (by
    show 1024 * (k.val / 1024) + k.val % 1024 = k.val
    omega)

theorem sum_blocks {M : Type*} [AddCommMonoid M] (f : Fin 4096 → M) :
    ∑ k : Fin 4096, f k = ∑ t : Fin 4, ∑ k : Fin 1024, f (blockEquiv (t, k)) :=
  (Equiv.sum_comp blockEquiv f).symm.trans (Fintype.sum_prod_type _)

/-- A sum over 4096 positions is the sum of its four consecutive blocks of 1024. -/
theorem sum_four_blocks {M : Type*} [AddCommMonoid M] (f : Fin 4096 → M) :
    ∑ k : Fin 4096, f k
      = 0 + (∑ k : Fin 1024, f (blockEquiv (0, k))) + (∑ k : Fin 1024, f (blockEquiv (1, k)))
          + (∑ k : Fin 1024, f (blockEquiv (2, k))) + (∑ k : Fin 1024, f (blockEquiv (3, k))) := by
  rw [sum_blocks, Fin.sum_univ_four, zero_add]

section AnyValues

variable (V : (c : Dev nD) → (b : Ref sig .tc) → Buf (Elt F) ((c : Thread nD τ).loc b))

theorem hz2 : (![0, 0] : Fin 2 → Nat) = fun _ => 0 := funext fun a => by fin_cases a <;> rfl

theorem scr1_first_eq (xb : Vec F S1x1024 .f32) (Wb : Vec F S1024x1024 .f32) :
    scr1_first xb Wb = k1_pay2 (k1_pay1 (F := F)) xb Wb := by
  unfold scr1_first
  rw [View.canon_unit_zero hz2, View.ld_unit_zero (S := S1x1024) hz2, View.ld_unit_zero (S := S1024x1024) hz2]

theorem scr1_next_eq (acc xb : Vec F S1x1024 .f32) (Wb : Vec F S1024x1024 .f32) :
    scr1_next acc xb Wb = k1_pay2 acc xb Wb := by
  unfold scr1_next
  rw [View.canon_unit_zero hz2, View.ld_unit_zero (S := S1x1024) hz2, View.ld_unit_zero (S := S1x1024) hz2,
    View.ld_unit_zero (S := S1024x1024) hz2]

theorem off1_2 : (fun a => win1_2.index t1_3 a * main_v9.ty.shape.size a) = fun _ => 0 :=
  funext fun a => by fin_cases a <;> decide +kernel

theorem write_last (c : Dev nD) (A : Buf (Elt F) ((c : Thread nD τ).loc main_v9)) (S : Vec F S1x1024 .f32) :
    ((cfg1.win 2).blk t1_3).view.write (Elt F) A ((cfg1.win 2).cut (grid1.coords t1_3) S) Finset.univ = S :=
  Memref.write_access_unit_zero_univ (Elt F) main_v9 off1_2 (fun a => by rw [congrFun off1_2 a]; simp) A S

theorem final1 (c : Dev nD) : (dat1 V c).arrAt 2 cfg1.N = scratchAt1 V c t1_3.val t1_3.isLt :=
  (arrAt1_2 V c).trans (write_last c _ _)

theorem scratch_last (c : Dev nD) :
    scratchAt1 V c t1_3.val t1_3.isLt
      = k1_pay2 (k1_pay2 (k1_pay2 (k1_pay2 (k1_pay1 (F := F)) (iblk1 V c 0 t1_0) (iblk1 V c 1 t1_0)) (iblk1 V c 0 t1_1) (iblk1 V c 1 t1_1))
          (iblk1 V c 0 t1_2) (iblk1 V c 1 t1_2)) (iblk1 V c 0 t1_3) (iblk1 V c 1 t1_3) := by
  rw [scratchAt1_last, scr1_next_eq, scr1_next_eq, scr1_next_eq, scr1_first_eq]

end AnyValues

section Blocks

variable (V : (c : Dev nD) → (b : Ref sig .tc) → Buf (Elt Ideal) ((c : Thread nD τ).loc b))

theorem idx1_0 : ∀ t : Fin cfg1.N, win1_0.index t (0 : Fin 2) = 0 ∧ win1_0.index t (1 : Fin 2) = t.val :=
  (by decide +kernel : ∀ t : Fin grid1.N, win1_0.index t (0 : Fin 2) = 0 ∧ win1_0.index t (1 : Fin 2) = t.val)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

abbrev x1 (c : Dev nD) : FVec Ideal S1x4096 .f32 := V c main_v8

abbrev w1 (c : Dev nD) : FVec Ideal S4096x1024 .f32 := V c main_arg2

theorem lt4 (t : Fin cfg1.N) : t.val < 4 := Nat.lt_of_lt_of_eq t.isLt N_1

abbrev lblk (c : Dev nD) (t : Fin cfg1.N) : Vec Ideal S1x1024 .f32 := iblk1 V c 0 t

abbrev rblk (c : Dev nD) (t : Fin cfg1.N) : Vec Ideal S1024x1024 .f32 := iblk1 V c 1 t

theorem lblk_apply (c : Dev nD) (t : Fin cfg1.N) (k : Fin 1024) :
    lblk V c t (ix2 0 k) = x1 V c (ix2 0 (blockEquiv (⟨t.val, lt4 t⟩, k))) := by
  show ((cfg1.win 0).blk t).view.read (Elt Ideal) (V c (Pipeline.arrRef spec1 0)) (ix2 0 k) = _
  rw [View.read_apply]
  show V c main_v8 _ = V c main_v8 _
  congr 1
  funext a
  apply Fin.ext
  match a with
  | ⟨0, _⟩ => show win1_0.index t 0 * 1 + 1 * 0 = 0
              rw [(idx1_0 t).1]
  | ⟨1, _⟩ => show win1_0.index t 1 * 1024 + 1 * k.val = 1024 * t.val + k.val
              rw [(idx1_0 t).2]; omega

theorem rblk_apply (c : Dev nD) (t : Fin cfg1.N) (k q : Fin 1024) :
    rblk V c t (ix2 k q) = w1 V c (ix2 (blockEquiv (⟨t.val, lt4 t⟩, k)) q) := by
  show ((cfg1.win 1).blk t).view.read (Elt Ideal) (V c (Pipeline.arrRef spec1 1)) (ix2 k q) = _
  rw [View.read_apply]
  show V c main_arg2 _ = V c main_arg2 _
  congr 1
  funext a
  apply Fin.ext
  match a with
  | ⟨0, _⟩ => show win1_1.index t 0 * 1024 + 1 * k.val = 1024 * t.val + k.val
              rw [(idx1_1 t).1]; omega
  | ⟨1, _⟩ => show win1_1.index t 1 * 1024 + 1 * q.val = q.val
              rw [(idx1_1 t).2]; omega

theorem partial_apply (c : Dev nD) (t : Fin cfg1.N) (q : Fin 1024) :
    ∑ k : Fin 1024, lblk V c t (ix2 0 k) * rblk V c t (ix2 k q)
      = ∑ k : Fin 1024, x1 V c (ix2 0 (blockEquiv (⟨t.val, lt4 t⟩, k))) * w1 V c (ix2 (blockEquiv (⟨t.val, lt4 t⟩, k)) q) :=
  Finset.sum_congr rfl fun k _ => by rw [lblk_apply, rblk_apply]

theorem four_points_apply (c : Dev nD) (q : Fin 1024) :
    k1_pay2 (F := Ideal)
        (k1_pay2 (k1_pay2 (k1_pay2 (k1_pay1 (F := Ideal)) (lblk V c t1_0) (rblk V c t1_0)) (lblk V c t1_1) (rblk V c t1_1))
          (lblk V c t1_2) (rblk V c t1_2))
        (lblk V c t1_3) (rblk V c t1_3) (ix2 (0 : Fin 1) q)
      = ∑ k : Fin 4096, x1 V c (ix2 0 k) * w1 V c (ix2 k q) := by
  rw [acc_step_apply, acc_step_apply, acc_step_apply, acc_step_apply, pay1_apply,
    partial_apply, partial_apply, partial_apply, partial_apply]
  exact (sum_four_blocks fun k : Fin 4096 => x1 V c (ix2 0 k) * w1 V c (ix2 k q)).symm

/-- Entry q of the result is the sum over all 4096 positions k of left(0, k) · right(k, q): the four blocks' partial sums added up. -/
theorem final1_apply (c : Dev nD) (q : Fin 1024) :
    (dat1 (F := Ideal) V c).arrAt 2 cfg1.N (ix2 0 q) = ∑ k : Fin 4096, x1 V c (ix2 0 k) * w1 V c (ix2 k q) := by
  refine (congrFun (final1 V c) (ix2 0 q)).trans ?_
  rw [scratch_last]
  exact four_points_apply V c q

end Blocks

end Cert.KernelIdeal.Hand
end
-- ==== Proof.KI.Val2.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«163280_j13889924235715_1_alg».proof.Proof.LibTransDot
import proofs.«163280_j13889924235715_1_alg».proof.Proof.KI.Reg2

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

section Region

variable (V : (c : Dev nD) → (b : Ref sig .tc) → Buf (Elt Ideal) ((c : Thread nD τ).loc b))

theorem isTrans2 : TransDot.IsTrans dot_S1x2048_S1024x2048_S1x1024_1_1_0_0_n_n := ⟨rfl, rfl, rfl, rfl, rfl, rfl⟩

theorem pay2_apply (x : Vec Ideal S1x2048 .f32) (W : Vec Ideal S1024x2048 .f32) (b : Vec Ideal S1024 .f32) (q : Fin 1024) :
    k2_pay1 (F := Ideal) x W b (ix2 0 q) =
      max ((∑ k : Fin 2048, x (ix2 0 k) * W (ix2 q k)) + b (ix1 q)) (Ideal.ofBits .f32 0x00000000#32) := by
  unfold k2_pay1
  simp only [shapeCast_self]
  rw [maximumf_apply, broadcast_apply]
  refine congrArg₂ max ?_ rfl
  rw [addf_apply]
  refine congrArg₂ (· + ·) (TransDot.matmul_zero_apply isTrans2 none x W 0 q) ?_
  refine (shapeCast_addUnit_apply ![1024] b shapeCasts_S1024_S1x1024 (ix2 0 q)).trans (congrArg b ?_)
  funext a
  match a with
  | ⟨0, _⟩ => rfl

theorem out2_3_eq (y0 : Vec Ideal S1x2048 .f32) (y1 : Vec Ideal S1024x2048 .f32) (y2 : Vec Ideal S1024 .f32) :
    out2_3 (F := Ideal) y0 y1 y2 = k2_pay1 y0 y1 y2 := by
  unfold out2_3
  rw [View.canon_unit_zero TransDot.hzero2]
  simp only [View.ld_unit_zero (S := S1x2048) TransDot.hzero2, View.ld_unit_zero (S := S1024x2048) TransDot.hzero2, View.ld_unit_zero (S := S1024) TransDot.hzero1]

theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 1) = t.val
    ∧ win2_3.index t (0 : Fin 2) = 0 ∧ win2_3.index t (1 : Fin 2) = t.val :=
  (by decide +kernel : ∀ t : Fin grid2.N, _)

def lin2 (x : S1x2048.Idx → EReal) (W : S1024x2048.Idx → EReal) (b : S1024.Idx → EReal) : S1x1024.Idx → EReal := fun i =>
      max ((∑ k : Fin 2048, x (ix2 0 k) * W (ix2 ⟨(i 1).val, idx2_lt1 i⟩ k)) + b (ix1 ⟨(i 1).val, idx2_lt1 i⟩)) (Ideal.ofBits .f32 0x00000000#32)

theorem lin2_apply (x : S1x2048.Idx → EReal) (W : S1024x2048.Idx → EReal) (b : S1024.Idx → EReal) (q : Fin 1024) :
    lin2 x W b (ix2 0 q) =
      max ((∑ k : Fin 2048, x (ix2 0 k) * W (ix2 q k)) + b (ix1 q)) (Ideal.ofBits .f32 0x00000000#32) := rfl

theorem iblk2_0_apply (c : Dev nD) (t : Fin cfg2.N) (k : Fin 2048) :
    (iblk2 (F := Ideal) V c 0 t : Vec Ideal S1x2048 .f32) (ix2 0 k) = (V c main_v10 : S1x2048.Idx → EReal) (ix2 0 k) := by
  obtain ⟨e00, e01, -⟩ := idx_facts2 t
  unfold iblk2
  rw [View.read_apply]
  show (V c main_v10 : S1x2048.Idx → EReal) _ = _
  congr 1
  funext a
  apply Fin.ext
  match a with
  | ⟨0, _⟩ => show win2_0.index t 0 * 1 + 1 * 0 = 0; rw [e00]
  | ⟨1, _⟩ => show win2_0.index t 1 * 2048 + 1 * k.val = k.val; rw [e01]; omega

theorem iblk2_1_apply (c : Dev nD) (t : Fin cfg2.N) (q : Fin 1024) (k : Fin 2048) (r : Fin 1024) (hr : r.val = 1024 * t.val + q.val) :
    (iblk2 (F := Ideal) V c 1 t : Vec Ideal S1024x2048 .f32) (ix2 q k) = (V c main_arg6 : S1024x2048.Idx → EReal) (ix2 r k) := by
  obtain ⟨-, -, e10, e11, -⟩ := idx_facts2 t
  unfold iblk2
  rw [View.read_apply]
  show (V c main_arg6 : S1024x2048.Idx → EReal) _ = _
  congr 1
  funext a
  apply Fin.ext
  match a with
  | ⟨0, _⟩ => show win2_1.index t 0 * 1024 + 1 * q.val = r.val; rw [e10, hr]; omega
  | ⟨1, _⟩ => show win2_1.index t 1 * 2048 + 1 * k.val = k.val; rw [e11]; omega

theorem iblk2_2_apply (c : Dev nD) (t : Fin cfg2.N) (q : Fin 1024) (r : Fin 1024) (hr : r.val = 1024 * t.val + q.val) :
    (iblk2 (F := Ideal) V c 2 t : Vec Ideal S1024 .f32) (ix1 q) = (V c main_arg7 : S1024.Idx → EReal) (ix1 r) := by
  obtain ⟨-, -, -, -, e20, -⟩ := idx_facts2 t
  unfold iblk2
  rw [View.read_apply]
  show (V c main_arg7 : S1024.Idx → EReal) _ = _
  congr 1
  funext a
  apply Fin.ext
  match a with
  | ⟨0, _⟩ => show win2_2.index t 0 * 1024 + 1 * q.val = r.val; rw [e20, hr]; omega

theorem flushed2_3_eq (c : Dev nD) (t : Fin cfg2.N) :
    (dat2 (F := Ideal) V c).flushed 3 t
      = ((cfg2.win 3).blk t).view.read (Elt Ideal) (lin2 (V c main_v10) (V c main_arg6) (V c main_arg7)) := by
  show (cfg2.win 3).cut (grid2.coords t) ((dat2 V c).after 3 t) = _
  rw [after2_3, out2_3_eq]
  obtain ⟨-, -, -, -, -, e30, e31⟩ := idx_facts2 t
  refine funext fun (j : S1x1024.Idx) => ?_
  obtain ⟨p, q, rfl⟩ : ∃ (p : Fin 1) (q : Fin 1024), j = ix2 p q := ⟨j 0, j 1, eq_ix2 j⟩
  obtain rfl : p = 0 := Subsingleton.elim p 0
  show k2_pay1 (F := Ideal) (iblk2 V c 0 t) (iblk2 V c 1 t) (iblk2 V c 2 t) (ix2 0 q)
    = lin2 (V c main_v10) (V c main_arg6) (V c main_arg7) (((cfg2.win 3).blk t).view.emb (ix2 0 q))
  refine (pay2_apply _ _ _ q).trans ?_
  have hr : ((((cfg2.win 3).blk t).view.emb (ix2 (0 : Fin 1) q) : S1x1024.Idx) 1).val = 1024 * t.val + q.val := by
    show win2_3.index t 1 * 1024 + 1 * q.val = _
    rw [e31]; omega
  unfold lin2
  refine congrArg₂ max ?_ rfl
  refine congrArg₂ (· + ·) (Finset.sum_congr rfl fun k _ => ?_) ?_
  · exact congrArg₂ (· * ·) (iblk2_0_apply V c t k) (iblk2_1_apply V c t q k _ hr)
  · exact iblk2_2_apply V c t q _ hr

theorem mem_blk2_3 (t : Fin cfg2.N) (i : S1x1024.Idx) :
    i ∈ ((cfg2.win 3).blk t).view.set ↔ ∀ a : Fin 2, win2_3.index t a * S1x1024.size a ≤ (i a).val ∧ (i a).val < win2_3.index t a * S1x1024.size a + S1x1024.size a := by
  show i ∈ ((View.whole main_v11).slice (win2_3.rect t)).set ↔ _
  rw [View.set_slice_whole, Rect.mem_set_unit]
  exact Iff.rfl

theorem covered2_3 (i : S1x1024.Idx) : ∃ t : Fin cfg2.N, (cfg2.win 3).flush t = true ∧ i ∈ ((cfg2.win 3).blk t).view.set := by
  have hi0 : (i 0).val < 1 := idx2_lt0 i
  have hi1 : (i 1).val < 1024 := idx2_lt1 i
  have hN : cfg2.N = 1 := N_2
  refine ⟨⟨(i 1).val / 1024, by rw [hN]; omega⟩, flush2_3 _, ?_⟩
  rw [mem_blk2_3]
  obtain ⟨-, -, -, -, -, e30, e31⟩ := idx_facts2 ⟨(i 1).val / 1024, by rw [hN]; omega⟩
  intro a
  match a with
  | ⟨0, _⟩ => show win2_3.index _ (0 : Fin 2) * 1 ≤ (i 0).val ∧ (i 0).val < win2_3.index _ (0 : Fin 2) * 1 + 1; rw [e30]; omega
  | ⟨1, _⟩ => show win2_3.index _ (1 : Fin 2) * 1024 ≤ (i 1).val ∧ (i 1).val < win2_3.index _ (1 : Fin 2) * 1024 + 1024; rw [e31]; show (i 1).val / 1024 * 1024 ≤ _ ∧ _ < (i 1).val / 1024 * 1024 + 1024; omega

theorem final2 (c : Dev nD) :
    (dat2 (F := Ideal) V c).arrAt 3 cfg2.N = lin2 (V c main_v10) (V c main_arg6) (V c main_arg7) :=
  (dat2 V c).arrAt_eq_of_cover 3 _ (fun t _ => flushed2_3_eq V c t) covered2_3

abbrev x2 (c : Dev nD) : FVec Ideal S1x2048 .f32 := V c main_v10

abbrev w2 (c : Dev nD) : FVec Ideal S1024x2048 .f32 := V c main_arg6

abbrev b2 (c : Dev nD) : FVec Ideal S1024 .f32 := V c main_arg7

/-- Column q of the result is the row x against row q of W, plus the bias at q, under the maximum with zero. -/
theorem final2_apply (c : Dev nD) (q : Fin 1024) :
    (dat2 (F := Ideal) V c).arrAt 3 cfg2.N (ix2 0 q) =
      max ((∑ k : Fin 2048, x2 V c (ix2 0 k) * w2 V c (ix2 q k)) + b2 V c (ix1 q)) (Ideal.ofBits .f32 0x00000000#32) := by
  rw [final2]
  exact lin2_apply _ _ _ q

theorem final2_apply_zero (c : Dev nD) (q : Fin 1024) :
    (dat2 (F := Ideal) V c).arrAt 3 cfg2.N (ix2 0 q) =
      max ((∑ k : Fin 2048, x2 V c (ix2 0 k) * w2 V c (ix2 q k)) + b2 V c (ix1 q)) 0 := by
  rw [final2_apply, Ideal.ofBits_zero_f32]

end Region

end Cert.KernelIdeal.Hand

end
-- ==== Proof.KI.Val3.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«163280_j13889924235715_1_alg».proof.Proof.LibTransDot
import proofs.«163280_j13889924235715_1_alg».proof.Proof.KI.Reg3

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

section Region

variable (V : (c : Dev nD) → (b : Ref sig .tc) → Buf (Elt Ideal) ((c : Thread nD τ).loc b))

theorem isTrans3 : TransDot.IsTrans dot_S1x1024_S3072x1024_S1x3072_1_1_0_0_n_n := ⟨rfl, rfl, rfl, rfl, rfl, rfl⟩

theorem pay3_apply (x : Vec Ideal S1x1024 .f32) (W : Vec Ideal S3072x1024 .f32) (b : Vec Ideal S3072 .f32) (q : Fin 3072) :
    k3_pay1 (F := Ideal) x W b (ix2 0 q) =
      (∑ k : Fin 1024, x (ix2 0 k) * W (ix2 q k)) + b (ix1 q) := by
  unfold k3_pay1
  simp only [shapeCast_self]
  rw [addf_apply]
  refine congrArg₂ (· + ·) (TransDot.matmul_zero_apply isTrans3 none x W 0 q) ?_
  refine (shapeCast_addUnit_apply ![3072] b shapeCasts_S3072_S1x3072 (ix2 0 q)).trans (congrArg b ?_)
  funext a
  match a with
  | ⟨0, _⟩ => rfl

theorem out3_3_eq (y0 : Vec Ideal S1x1024 .f32) (y1 : Vec Ideal S3072x1024 .f32) (y2 : Vec Ideal S3072 .f32) :
    out3_3 (F := Ideal) y0 y1 y2 = k3_pay1 y0 y1 y2 := by
  unfold out3_3
  rw [View.canon_unit_zero TransDot.hzero2]
  simp only [View.ld_unit_zero (S := S1x1024) TransDot.hzero2, View.ld_unit_zero (S := S3072x1024) TransDot.hzero2, View.ld_unit_zero (S := S3072) TransDot.hzero1]

theorem idx_facts3 : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 1) = t.val
    ∧ win3_3.index t (0 : Fin 2) = 0 ∧ win3_3.index t (1 : Fin 2) = t.val :=
  (by decide +kernel : ∀ t : Fin grid3.N, _)

def lin3 (x : S1x1024.Idx → EReal) (W : S3072x1024.Idx → EReal) (b : S3072.Idx → EReal) : S1x3072.Idx → EReal := fun i =>
      (∑ k : Fin 1024, x (ix2 0 k) * W (ix2 ⟨(i 1).val, idx2_lt1 i⟩ k)) + b (ix1 ⟨(i 1).val, idx2_lt1 i⟩)

theorem lin3_apply (x : S1x1024.Idx → EReal) (W : S3072x1024.Idx → EReal) (b : S3072.Idx → EReal) (q : Fin 3072) :
    lin3 x W b (ix2 0 q) =
      (∑ k : Fin 1024, x (ix2 0 k) * W (ix2 q k)) + b (ix1 q) := rfl

theorem iblk3_0_apply (c : Dev nD) (t : Fin cfg3.N) (k : Fin 1024) :
    (iblk3 (F := Ideal) V c 0 t : Vec Ideal S1x1024 .f32) (ix2 0 k) = (V c main_v11 : S1x1024.Idx → EReal) (ix2 0 k) := by
  obtain ⟨e00, e01, -⟩ := idx_facts3 t
  unfold iblk3
  rw [View.read_apply]
  show (V c main_v11 : S1x1024.Idx → EReal) _ = _
  congr 1
  funext a
  apply Fin.ext
  match a with
  | ⟨0, _⟩ => show win3_0.index t 0 * 1 + 1 * 0 = 0; rw [e00]
  | ⟨1, _⟩ => show win3_0.index t 1 * 1024 + 1 * k.val = k.val; rw [e01]; omega

theorem iblk3_1_apply (c : Dev nD) (t : Fin cfg3.N) (q : Fin 3072) (k : Fin 1024) (r : Fin 3072) (hr : r.val = 3072 * t.val + q.val) :
    (iblk3 (F := Ideal) V c 1 t : Vec Ideal S3072x1024 .f32) (ix2 q k) = (V c main_arg8 : S3072x1024.Idx → EReal) (ix2 r k) := by
  obtain ⟨-, -, e10, e11, -⟩ := idx_facts3 t
  unfold iblk3
  rw [View.read_apply]
  show (V c main_arg8 : S3072x1024.Idx → EReal) _ = _
  congr 1
  funext a
  apply Fin.ext
  match a with
  | ⟨0, _⟩ => show win3_1.index t 0 * 3072 + 1 * q.val = r.val; rw [e10, hr]; omega
  | ⟨1, _⟩ => show win3_1.index t 1 * 1024 + 1 * k.val = k.val; rw [e11]; omega

theorem iblk3_2_apply (c : Dev nD) (t : Fin cfg3.N) (q : Fin 3072) (r : Fin 3072) (hr : r.val = 3072 * t.val + q.val) :
    (iblk3 (F := Ideal) V c 2 t : Vec Ideal S3072 .f32) (ix1 q) = (V c main_arg10 : S3072.Idx → EReal) (ix1 r) := by
  obtain ⟨-, -, -, -, e20, -⟩ := idx_facts3 t
  unfold iblk3
  rw [View.read_apply]
  show (V c main_arg10 : S3072.Idx → EReal) _ = _
  congr 1
  funext a
  apply Fin.ext
  match a with
  | ⟨0, _⟩ => show win3_2.index t 0 * 3072 + 1 * q.val = r.val; rw [e20, hr]; omega

theorem flushed3_3_eq (c : Dev nD) (t : Fin cfg3.N) :
    (dat3 (F := Ideal) V c).flushed 3 t
      = ((cfg3.win 3).blk t).view.read (Elt Ideal) (lin3 (V c main_v11) (V c main_arg8) (V c main_arg10)) := by
  show (cfg3.win 3).cut (grid3.coords t) ((dat3 V c).after 3 t) = _
  rw [after3_3, out3_3_eq]
  obtain ⟨-, -, -, -, -, e30, e31⟩ := idx_facts3 t
  refine funext fun (j : S1x3072.Idx) => ?_
  obtain ⟨p, q, rfl⟩ : ∃ (p : Fin 1) (q : Fin 3072), j = ix2 p q := ⟨j 0, j 1, eq_ix2 j⟩
  obtain rfl : p = 0 := Subsingleton.elim p 0
  show k3_pay1 (F := Ideal) (iblk3 V c 0 t) (iblk3 V c 1 t) (iblk3 V c 2 t) (ix2 0 q)
    = lin3 (V c main_v11) (V c main_arg8) (V c main_arg10) (((cfg3.win 3).blk t).view.emb (ix2 0 q))
  refine (pay3_apply _ _ _ q).trans ?_
  have hr : ((((cfg3.win 3).blk t).view.emb (ix2 (0 : Fin 1) q) : S1x3072.Idx) 1).val = 3072 * t.val + q.val := by
    show win3_3.index t 1 * 3072 + 1 * q.val = _
    rw [e31]; omega
  unfold lin3
  refine congrArg₂ (· + ·) (Finset.sum_congr rfl fun k _ => ?_) ?_
  · exact congrArg₂ (· * ·) (iblk3_0_apply V c t k) (iblk3_1_apply V c t q k _ hr)
  · exact iblk3_2_apply V c t q _ hr

theorem mem_blk3_3 (t : Fin cfg3.N) (i : S1x3072.Idx) :
    i ∈ ((cfg3.win 3).blk t).view.set ↔ ∀ a : Fin 2, win3_3.index t a * S1x3072.size a ≤ (i a).val ∧ (i a).val < win3_3.index t a * S1x3072.size a + S1x3072.size a := by
  show i ∈ ((View.whole main_v12).slice (win3_3.rect t)).set ↔ _
  rw [View.set_slice_whole, Rect.mem_set_unit]
  exact Iff.rfl

theorem covered3_3 (i : S1x3072.Idx) : ∃ t : Fin cfg3.N, (cfg3.win 3).flush t = true ∧ i ∈ ((cfg3.win 3).blk t).view.set := by
  have hi0 : (i 0).val < 1 := idx2_lt0 i
  have hi1 : (i 1).val < 3072 := idx2_lt1 i
  have hN : cfg3.N = 1 := N_3
  refine ⟨⟨(i 1).val / 3072, by rw [hN]; omega⟩, flush3_3 _, ?_⟩
  rw [mem_blk3_3]
  obtain ⟨-, -, -, -, -, e30, e31⟩ := idx_facts3 ⟨(i 1).val / 3072, by rw [hN]; omega⟩
  intro a
  match a with
  | ⟨0, _⟩ => show win3_3.index _ (0 : Fin 2) * 1 ≤ (i 0).val ∧ (i 0).val < win3_3.index _ (0 : Fin 2) * 1 + 1; rw [e30]; omega
  | ⟨1, _⟩ => show win3_3.index _ (1 : Fin 2) * 3072 ≤ (i 1).val ∧ (i 1).val < win3_3.index _ (1 : Fin 2) * 3072 + 3072; rw [e31]; show (i 1).val / 3072 * 3072 ≤ _ ∧ _ < (i 1).val / 3072 * 3072 + 3072; omega

theorem final3 (c : Dev nD) :
    (dat3 (F := Ideal) V c).arrAt 3 cfg3.N = lin3 (V c main_v11) (V c main_arg8) (V c main_arg10) :=
  (dat3 V c).arrAt_eq_of_cover 3 _ (fun t _ => flushed3_3_eq V c t) covered3_3

abbrev x3 (c : Dev nD) : FVec Ideal S1x1024 .f32 := V c main_v11

abbrev w3 (c : Dev nD) : FVec Ideal S3072x1024 .f32 := V c main_arg8

abbrev b3 (c : Dev nD) : FVec Ideal S3072 .f32 := V c main_arg10

/-- Column q of the result is the row x against row q of W, plus the bias at q. -/
theorem final3_apply (c : Dev nD) (q : Fin 3072) :
    (dat3 (F := Ideal) V c).arrAt 3 cfg3.N (ix2 0 q) =
      (∑ k : Fin 1024, x3 V c (ix2 0 k) * w3 V c (ix2 q k)) + b3 V c (ix1 q) := by
  rw [final3]
  exact lin3_apply _ _ _ q

end Region

end Cert.KernelIdeal.Hand

end
-- ==== Proof.KI.Val4.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«163280_j13889924235715_1_alg».proof.Proof.LibTransDot
import proofs.«163280_j13889924235715_1_alg».proof.Proof.KI.Reg4

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

section Region

variable (V : (c : Dev nD) → (b : Ref sig .tc) → Buf (Elt Ideal) ((c : Thread nD τ).loc b))

theorem isTrans4 : TransDot.IsTrans dot_S1x1024_S3072x1024_S1x3072_1_1_0_0_n_n := ⟨rfl, rfl, rfl, rfl, rfl, rfl⟩

theorem pay4_apply (x : Vec Ideal S1x1024 .f32) (W : Vec Ideal S3072x1024 .f32) (b : Vec Ideal S3072 .f32) (q : Fin 3072) :
    k4_pay1 (F := Ideal) x W b (ix2 0 q) =
      (∑ k : Fin 1024, x (ix2 0 k) * W (ix2 q k)) + b (ix1 q) := by
  unfold k4_pay1
  simp only [shapeCast_self]
  rw [addf_apply]
  refine congrArg₂ (· + ·) (TransDot.matmul_zero_apply isTrans4 none x W 0 q) ?_
  refine (shapeCast_addUnit_apply ![3072] b shapeCasts_S3072_S1x3072 (ix2 0 q)).trans (congrArg b ?_)
  funext a
  match a with
  | ⟨0, _⟩ => rfl

theorem out4_3_eq (y0 : Vec Ideal S1x1024 .f32) (y1 : Vec Ideal S3072x1024 .f32) (y2 : Vec Ideal S3072 .f32) :
    out4_3 (F := Ideal) y0 y1 y2 = k4_pay1 y0 y1 y2 := by
  unfold out4_3
  rw [View.canon_unit_zero TransDot.hzero2]
  simp only [View.ld_unit_zero (S := S1x1024) TransDot.hzero2, View.ld_unit_zero (S := S3072x1024) TransDot.hzero2, View.ld_unit_zero (S := S3072) TransDot.hzero1]

theorem idx_facts4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 1) = t.val
    ∧ win4_3.index t (0 : Fin 2) = 0 ∧ win4_3.index t (1 : Fin 2) = t.val :=
  (by decide +kernel : ∀ t : Fin grid4.N, _)

def lin4 (x : S1x1024.Idx → EReal) (W : S3072x1024.Idx → EReal) (b : S3072.Idx → EReal) : S1x3072.Idx → EReal := fun i =>
      (∑ k : Fin 1024, x (ix2 0 k) * W (ix2 ⟨(i 1).val, idx2_lt1 i⟩ k)) + b (ix1 ⟨(i 1).val, idx2_lt1 i⟩)

theorem lin4_apply (x : S1x1024.Idx → EReal) (W : S3072x1024.Idx → EReal) (b : S3072.Idx → EReal) (q : Fin 3072) :
    lin4 x W b (ix2 0 q) =
      (∑ k : Fin 1024, x (ix2 0 k) * W (ix2 q k)) + b (ix1 q) := rfl

theorem iblk4_0_apply (c : Dev nD) (t : Fin cfg4.N) (k : Fin 1024) :
    (iblk4 (F := Ideal) V c 0 t : Vec Ideal S1x1024 .f32) (ix2 0 k) = (V c main_v5 : S1x1024.Idx → EReal) (ix2 0 k) := by
  obtain ⟨e00, e01, -⟩ := idx_facts4 t
  unfold iblk4
  rw [View.read_apply]
  show (V c main_v5 : S1x1024.Idx → EReal) _ = _
  congr 1
  funext a
  apply Fin.ext
  match a with
  | ⟨0, _⟩ => show win4_0.index t 0 * 1 + 1 * 0 = 0; rw [e00]
  | ⟨1, _⟩ => show win4_0.index t 1 * 1024 + 1 * k.val = k.val; rw [e01]; omega

theorem iblk4_1_apply (c : Dev nD) (t : Fin cfg4.N) (q : Fin 3072) (k : Fin 1024) (r : Fin 3072) (hr : r.val = 3072 * t.val + q.val) :
    (iblk4 (F := Ideal) V c 1 t : Vec Ideal S3072x1024 .f32) (ix2 q k) = (V c main_arg9 : S3072x1024.Idx → EReal) (ix2 r k) := by
  obtain ⟨-, -, e10, e11, -⟩ := idx_facts4 t
  unfold iblk4
  rw [View.read_apply]
  show (V c main_arg9 : S3072x1024.Idx → EReal) _ = _
  congr 1
  funext a
  apply Fin.ext
  match a with
  | ⟨0, _⟩ => show win4_1.index t 0 * 3072 + 1 * q.val = r.val; rw [e10, hr]; omega
  | ⟨1, _⟩ => show win4_1.index t 1 * 1024 + 1 * k.val = k.val; rw [e11]; omega

theorem iblk4_2_apply (c : Dev nD) (t : Fin cfg4.N) (q : Fin 3072) (r : Fin 3072) (hr : r.val = 3072 * t.val + q.val) :
    (iblk4 (F := Ideal) V c 2 t : Vec Ideal S3072 .f32) (ix1 q) = (V c main_arg11 : S3072.Idx → EReal) (ix1 r) := by
  obtain ⟨-, -, -, -, e20, -⟩ := idx_facts4 t
  unfold iblk4
  rw [View.read_apply]
  show (V c main_arg11 : S3072.Idx → EReal) _ = _
  congr 1
  funext a
  apply Fin.ext
  match a with
  | ⟨0, _⟩ => show win4_2.index t 0 * 3072 + 1 * q.val = r.val; rw [e20, hr]; omega

theorem flushed4_3_eq (c : Dev nD) (t : Fin cfg4.N) :
    (dat4 (F := Ideal) V c).flushed 3 t
      = ((cfg4.win 3).blk t).view.read (Elt Ideal) (lin4 (V c main_v5) (V c main_arg9) (V c main_arg11)) := by
  show (cfg4.win 3).cut (grid4.coords t) ((dat4 V c).after 3 t) = _
  rw [after4_3, out4_3_eq]
  obtain ⟨-, -, -, -, -, e30, e31⟩ := idx_facts4 t
  refine funext fun (j : S1x3072.Idx) => ?_
  obtain ⟨p, q, rfl⟩ : ∃ (p : Fin 1) (q : Fin 3072), j = ix2 p q := ⟨j 0, j 1, eq_ix2 j⟩
  obtain rfl : p = 0 := Subsingleton.elim p 0
  show k4_pay1 (F := Ideal) (iblk4 V c 0 t) (iblk4 V c 1 t) (iblk4 V c 2 t) (ix2 0 q)
    = lin4 (V c main_v5) (V c main_arg9) (V c main_arg11) (((cfg4.win 3).blk t).view.emb (ix2 0 q))
  refine (pay4_apply _ _ _ q).trans ?_
  have hr : ((((cfg4.win 3).blk t).view.emb (ix2 (0 : Fin 1) q) : S1x3072.Idx) 1).val = 3072 * t.val + q.val := by
    show win4_3.index t 1 * 3072 + 1 * q.val = _
    rw [e31]; omega
  unfold lin4
  refine congrArg₂ (· + ·) (Finset.sum_congr rfl fun k _ => ?_) ?_
  · exact congrArg₂ (· * ·) (iblk4_0_apply V c t k) (iblk4_1_apply V c t q k _ hr)
  · exact iblk4_2_apply V c t q _ hr

theorem mem_blk4_3 (t : Fin cfg4.N) (i : S1x3072.Idx) :
    i ∈ ((cfg4.win 3).blk t).view.set ↔ ∀ a : Fin 2, win4_3.index t a * S1x3072.size a ≤ (i a).val ∧ (i a).val < win4_3.index t a * S1x3072.size a + S1x3072.size a := by
  show i ∈ ((View.whole main_v13).slice (win4_3.rect t)).set ↔ _
  rw [View.set_slice_whole, Rect.mem_set_unit]
  exact Iff.rfl

theorem covered4_3 (i : S1x3072.Idx) : ∃ t : Fin cfg4.N, (cfg4.win 3).flush t = true ∧ i ∈ ((cfg4.win 3).blk t).view.set := by
  have hi0 : (i 0).val < 1 := idx2_lt0 i
  have hi1 : (i 1).val < 3072 := idx2_lt1 i
  have hN : cfg4.N = 1 := N_4
  refine ⟨⟨(i 1).val / 3072, by rw [hN]; omega⟩, flush4_3 _, ?_⟩
  rw [mem_blk4_3]
  obtain ⟨-, -, -, -, -, e30, e31⟩ := idx_facts4 ⟨(i 1).val / 3072, by rw [hN]; omega⟩
  intro a
  match a with
  | ⟨0, _⟩ => show win4_3.index _ (0 : Fin 2) * 1 ≤ (i 0).val ∧ (i 0).val < win4_3.index _ (0 : Fin 2) * 1 + 1; rw [e30]; omega
  | ⟨1, _⟩ => show win4_3.index _ (1 : Fin 2) * 3072 ≤ (i 1).val ∧ (i 1).val < win4_3.index _ (1 : Fin 2) * 3072 + 3072; rw [e31]; show (i 1).val / 3072 * 3072 ≤ _ ∧ _ < (i 1).val / 3072 * 3072 + 3072; omega

theorem final4 (c : Dev nD) :
    (dat4 (F := Ideal) V c).arrAt 3 cfg4.N = lin4 (V c main_v5) (V c main_arg9) (V c main_arg11) :=
  (dat4 V c).arrAt_eq_of_cover 3 _ (fun t _ => flushed4_3_eq V c t) covered4_3

abbrev x4 (c : Dev nD) : FVec Ideal S1x1024 .f32 := V c main_v5

abbrev w4 (c : Dev nD) : FVec Ideal S3072x1024 .f32 := V c main_arg9

abbrev b4 (c : Dev nD) : FVec Ideal S3072 .f32 := V c main_arg11

/-- Column q of the result is the row x against row q of W, plus the bias at q. -/
theorem final4_apply (c : Dev nD) (q : Fin 3072) :
    (dat4 (F := Ideal) V c).arrAt 3 cfg4.N (ix2 0 q) =
      (∑ k : Fin 1024, x4 V c (ix2 0 k) * w4 V c (ix2 q k)) + b4 V c (ix1 q) := by
  rw [final4]
  exact lin4_apply _ _ _ q

end Region

end Cert.KernelIdeal.Hand

end
-- ==== Proof.KI.Val5.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«163280_j13889924235715_1_alg».proof.Proof.LibTransDot
import proofs.«163280_j13889924235715_1_alg».proof.Proof.KI.Reg5

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

section Region

variable (V : (c : Dev nD) → (b : Ref sig .tc) → Buf (Elt Ideal) ((c : Thread nD τ).loc b))

theorem isTrans5 : TransDot.IsTrans dot_S1x1024_S4096x1024_S1x4096_1_1_0_0_n_n := ⟨rfl, rfl, rfl, rfl, rfl, rfl⟩

theorem pay5_apply (x : Vec Ideal S1x1024 .f32) (W : Vec Ideal S4096x1024 .f32) (b : Vec Ideal S4096 .f32) (q : Fin 4096) :
    k5_pay1 (F := Ideal) x W b (ix2 0 q) =
      (∑ k : Fin 1024, x (ix2 0 k) * W (ix2 q k)) + b (ix1 q) := by
  unfold k5_pay1
  simp only [shapeCast_self]
  rw [addf_apply]
  refine congrArg₂ (· + ·) (TransDot.matmul_zero_apply isTrans5 none x W 0 q) ?_
  refine (shapeCast_addUnit_apply ![4096] b shapeCasts_S4096_S1x4096 (ix2 0 q)).trans (congrArg b ?_)
  funext a
  match a with
  | ⟨0, _⟩ => rfl

theorem out5_3_eq (y0 : Vec Ideal S1x1024 .f32) (y1 : Vec Ideal S4096x1024 .f32) (y2 : Vec Ideal S4096 .f32) :
    out5_3 (F := Ideal) y0 y1 y2 = k5_pay1 y0 y1 y2 := by
  unfold out5_3
  rw [View.canon_unit_zero TransDot.hzero2]
  simp only [View.ld_unit_zero (S := S1x1024) TransDot.hzero2, View.ld_unit_zero (S := S4096x1024) TransDot.hzero2, View.ld_unit_zero (S := S4096) TransDot.hzero1]

theorem idx_facts5 : ∀ t : Fin cfg5.N,
    win5_0.index t (0 : Fin 2) = 0 ∧ win5_0.index t (1 : Fin 2) = 0
    ∧ win5_1.index t (0 : Fin 2) = t.val ∧ win5_1.index t (1 : Fin 2) = 0
    ∧ win5_2.index t (0 : Fin 1) = t.val
    ∧ win5_3.index t (0 : Fin 2) = 0 ∧ win5_3.index t (1 : Fin 2) = t.val :=
  (by decide +kernel : ∀ t : Fin grid5.N, _)

def lin5 (x : S1x1024.Idx → EReal) (W : S49152x1024.Idx → EReal) (b : S49152.Idx → EReal) : S1x49152.Idx → EReal := fun i =>
      (∑ k : Fin 1024, x (ix2 0 k) * W (ix2 ⟨(i 1).val, idx2_lt1 i⟩ k)) + b (ix1 ⟨(i 1).val, idx2_lt1 i⟩)

theorem lin5_apply (x : S1x1024.Idx → EReal) (W : S49152x1024.Idx → EReal) (b : S49152.Idx → EReal) (q : Fin 49152) :
    lin5 x W b (ix2 0 q) =
      (∑ k : Fin 1024, x (ix2 0 k) * W (ix2 q k)) + b (ix1 q) := rfl

theorem iblk5_0_apply (c : Dev nD) (t : Fin cfg5.N) (k : Fin 1024) :
    (iblk5 (F := Ideal) V c 0 t : Vec Ideal S1x1024 .f32) (ix2 0 k) = (V c main_v41 : S1x1024.Idx → EReal) (ix2 0 k) := by
  obtain ⟨e00, e01, -⟩ := idx_facts5 t
  unfold iblk5
  rw [View.read_apply]
  show (V c main_v41 : S1x1024.Idx → EReal) _ = _
  congr 1
  funext a
  apply Fin.ext
  match a with
  | ⟨0, _⟩ => show win5_0.index t 0 * 1 + 1 * 0 = 0; rw [e00]
  | ⟨1, _⟩ => show win5_0.index t 1 * 1024 + 1 * k.val = k.val; rw [e01]; omega

theorem iblk5_1_apply (c : Dev nD) (t : Fin cfg5.N) (q : Fin 4096) (k : Fin 1024) (r : Fin 49152) (hr : r.val = 4096 * t.val + q.val) :
    (iblk5 (F := Ideal) V c 1 t : Vec Ideal S4096x1024 .f32) (ix2 q k) = (V c main_v42 : S49152x1024.Idx → EReal) (ix2 r k) := by
  obtain ⟨-, -, e10, e11, -⟩ := idx_facts5 t
  unfold iblk5
  rw [View.read_apply]
  show (V c main_v42 : S49152x1024.Idx → EReal) _ = _
  congr 1
  funext a
  apply Fin.ext
  match a with
  | ⟨0, _⟩ => show win5_1.index t 0 * 4096 + 1 * q.val = r.val; rw [e10, hr]; omega
  | ⟨1, _⟩ => show win5_1.index t 1 * 1024 + 1 * k.val = k.val; rw [e11]; omega

theorem iblk5_2_apply (c : Dev nD) (t : Fin cfg5.N) (q : Fin 4096) (r : Fin 49152) (hr : r.val = 4096 * t.val + q.val) :
    (iblk5 (F := Ideal) V c 2 t : Vec Ideal S4096 .f32) (ix1 q) = (V c main_v43 : S49152.Idx → EReal) (ix1 r) := by
  obtain ⟨-, -, -, -, e20, -⟩ := idx_facts5 t
  unfold iblk5
  rw [View.read_apply]
  show (V c main_v43 : S49152.Idx → EReal) _ = _
  congr 1
  funext a
  apply Fin.ext
  match a with
  | ⟨0, _⟩ => show win5_2.index t 0 * 4096 + 1 * q.val = r.val; rw [e20, hr]; omega

theorem flushed5_3_eq (c : Dev nD) (t : Fin cfg5.N) :
    (dat5 (F := Ideal) V c).flushed 3 t
      = ((cfg5.win 3).blk t).view.read (Elt Ideal) (lin5 (V c main_v41) (V c main_v42) (V c main_v43)) := by
  show (cfg5.win 3).cut (grid5.coords t) ((dat5 V c).after 3 t) = _
  rw [after5_3, out5_3_eq]
  obtain ⟨-, -, -, -, -, e30, e31⟩ := idx_facts5 t
  refine funext fun (j : S1x4096.Idx) => ?_
  obtain ⟨p, q, rfl⟩ : ∃ (p : Fin 1) (q : Fin 4096), j = ix2 p q := ⟨j 0, j 1, eq_ix2 j⟩
  obtain rfl : p = 0 := Subsingleton.elim p 0
  show k5_pay1 (F := Ideal) (iblk5 V c 0 t) (iblk5 V c 1 t) (iblk5 V c 2 t) (ix2 0 q)
    = lin5 (V c main_v41) (V c main_v42) (V c main_v43) (((cfg5.win 3).blk t).view.emb (ix2 0 q))
  refine (pay5_apply _ _ _ q).trans ?_
  have hr : ((((cfg5.win 3).blk t).view.emb (ix2 (0 : Fin 1) q) : S1x49152.Idx) 1).val = 4096 * t.val + q.val := by
    show win5_3.index t 1 * 4096 + 1 * q.val = _
    rw [e31]; omega
  unfold lin5
  refine congrArg₂ (· + ·) (Finset.sum_congr rfl fun k _ => ?_) ?_
  · exact congrArg₂ (· * ·) (iblk5_0_apply V c t k) (iblk5_1_apply V c t q k _ hr)
  · exact iblk5_2_apply V c t q _ hr

theorem mem_blk5_3 (t : Fin cfg5.N) (i : S1x49152.Idx) :
    i ∈ ((cfg5.win 3).blk t).view.set ↔ ∀ a : Fin 2, win5_3.index t a * S1x4096.size a ≤ (i a).val ∧ (i a).val < win5_3.index t a * S1x4096.size a + S1x4096.size a := by
  show i ∈ ((View.whole main_v44).slice (win5_3.rect t)).set ↔ _
  rw [View.set_slice_whole, Rect.mem_set_unit]
  exact Iff.rfl

theorem covered5_3 (i : S1x49152.Idx) : ∃ t : Fin cfg5.N, (cfg5.win 3).flush t = true ∧ i ∈ ((cfg5.win 3).blk t).view.set := by
  have hi0 : (i 0).val < 1 := idx2_lt0 i
  have hi1 : (i 1).val < 49152 := idx2_lt1 i
  have hN : cfg5.N = 12 := N_5
  refine ⟨⟨(i 1).val / 4096, by rw [hN]; omega⟩, flush5_3 _, ?_⟩
  rw [mem_blk5_3]
  obtain ⟨-, -, -, -, -, e30, e31⟩ := idx_facts5 ⟨(i 1).val / 4096, by rw [hN]; omega⟩
  intro a
  match a with
  | ⟨0, _⟩ => show win5_3.index _ (0 : Fin 2) * 1 ≤ (i 0).val ∧ (i 0).val < win5_3.index _ (0 : Fin 2) * 1 + 1; rw [e30]; omega
  | ⟨1, _⟩ => show win5_3.index _ (1 : Fin 2) * 4096 ≤ (i 1).val ∧ (i 1).val < win5_3.index _ (1 : Fin 2) * 4096 + 4096; rw [e31]; show (i 1).val / 4096 * 4096 ≤ _ ∧ _ < (i 1).val / 4096 * 4096 + 4096; omega

theorem final5 (c : Dev nD) :
    (dat5 (F := Ideal) V c).arrAt 3 cfg5.N = lin5 (V c main_v41) (V c main_v42) (V c main_v43) :=
  (dat5 V c).arrAt_eq_of_cover 3 _ (fun t _ => flushed5_3_eq V c t) covered5_3

abbrev x5 (c : Dev nD) : FVec Ideal S1x1024 .f32 := V c main_v41

abbrev w5 (c : Dev nD) : FVec Ideal S49152x1024 .f32 := V c main_v42

abbrev b5 (c : Dev nD) : FVec Ideal S49152 .f32 := V c main_v43

/-- Column q of the result is the row x against row q of W, plus the bias at q. -/
theorem final5_apply (c : Dev nD) (q : Fin 49152) :
    (dat5 (F := Ideal) V c).arrAt 3 cfg5.N (ix2 0 q) =
      (∑ k : Fin 1024, x5 V c (ix2 0 k) * w5 V c (ix2 q k)) + b5 V c (ix1 q) := by
  rw [final5]
  exact lin5_apply _ _ _ q

end Region

end Cert.KernelIdeal.Hand

end
-- ==== Proof.KI.Val6.lean ====
import proofs.«163280_j13889924235715_1_alg».proof.Proof.Gen.KernelIdeal.Launch
import proofs.«163280_j13889924235715_1_alg».proof.Proof.Gen.KernelIdeal.Skeleton
import proofs.«163280_j13889924235715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«163280_j13889924235715_1_alg».proof.Proof.LibTransDot
import proofs.«163280_j13889924235715_1_alg».proof.Proof.KI.Reg6

noncomputable section

namespace Cert.KernelIdeal.Hand

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

section Region

variable (V : (c : Dev nD) → (b : Ref sig .tc) → Buf (Elt Ideal) ((c : Thread nD τ).loc b))

theorem isTrans6 : TransDot.IsTrans dot_S1x1024_S1105x1024_S1x1105_1_1_0_0_n_n := ⟨rfl, rfl, rfl, rfl, rfl, rfl⟩

theorem pay6_apply (x : Vec Ideal S1x1024 .f32) (W : Vec Ideal S1105x1024 .f32) (b : Vec Ideal S1105 .f32) (q : Fin 1105) :
    k6_pay1 (F := Ideal) x W b (ix2 0 q) =
      (∑ k : Fin 1024, x (ix2 0 k) * W (ix2 q k)) + b (ix1 q) := by
  unfold k6_pay1
  simp only [shapeCast_self]
  rw [addf_apply]
  refine congrArg₂ (· + ·) (TransDot.matmul_zero_apply isTrans6 none x W 0 q) ?_
  refine (shapeCast_addUnit_apply ![1105] b shapeCasts_S1105_S1x1105 (ix2 0 q)).trans (congrArg b ?_)
  funext a
  match a with
  | ⟨0, _⟩ => rfl

theorem out6_3_eq (y0 : Vec Ideal S1x1024 .f32) (y1 : Vec Ideal S1105x1024 .f32) (y2 : Vec Ideal S1105 .f32) :
    out6_3 (F := Ideal) y0 y1 y2 = k6_pay1 y0 y1 y2 := by
  unfold out6_3
  rw [View.canon_unit_zero TransDot.hzero2]
  simp only [View.ld_unit_zero (S := S1x1024) TransDot.hzero2, View.ld_unit_zero (S := S1105x1024) TransDot.hzero2, View.ld_unit_zero (S := S1105) TransDot.hzero1]

theorem idx_facts6 : ∀ t : Fin cfg6.N,
    win6_0.index t (0 : Fin 2) = 0 ∧ win6_0.index t (1 : Fin 2) = 0
    ∧ win6_1.index t (0 : Fin 2) = t.val ∧ win6_1.index t (1 : Fin 2) = 0
    ∧ win6_2.index t (0 : Fin 1) = t.val
    ∧ win6_3.index t (0 : Fin 2) = 0 ∧ win6_3.index t (1 : Fin 2) = t.val :=
  (by decide +kernel : ∀ t : Fin grid6.N, _)

def lin6 (x : S1x1024.Idx → EReal) (W : S1105x1024.Idx → EReal) (b : S1105.Idx → EReal) : S1x1105.Idx → EReal := fun i =>
      (∑ k : Fin 1024, x (ix2 0 k) * W (ix2 ⟨(i 1).val, idx2_lt1 i⟩ k)) + b (ix1 ⟨(i 1).val, idx2_lt1 i⟩)

theorem lin6_apply (x : S1x1024.Idx → EReal) (W : S1105x1024.Idx → EReal) (b : S1105.Idx → EReal) (q : Fin 1105) :
    lin6 x W b (ix2 0 q) =
      (∑ k : Fin 1024, x (ix2 0 k) * W (ix2 q k)) + b (ix1 q) := rfl

theorem iblk6_0_apply (c : Dev nD) (t : Fin cfg6.N) (k : Fin 1024) :
    (iblk6 (F := Ideal) V c 0 t : Vec Ideal S1x1024 .f32) (ix2 0 k) = (V c main_v41 : S1x1024.Idx → EReal) (ix2 0 k) := by
  obtain ⟨e00, e01, -⟩ := idx_facts6 t
  unfold iblk6
  rw [View.read_apply]
  show (V c main_v41 : S1x1024.Idx → EReal) _ = _
  congr 1
  funext a
  apply Fin.ext
  match a with
  | ⟨0, _⟩ => show win6_0.index t 0 * 1 + 1 * 0 = 0; rw [e00]
  | ⟨1, _⟩ => show win6_0.index t 1 * 1024 + 1 * k.val = k.val; rw [e01]; omega

theorem iblk6_1_apply (c : Dev nD) (t : Fin cfg6.N) (q : Fin 1105) (k : Fin 1024) (r : Fin 1105) (hr : r.val = 1105 * t.val + q.val) :
    (iblk6 (F := Ideal) V c 1 t : Vec Ideal S1105x1024 .f32) (ix2 q k) = (V c main_v45 : S1105x1024.Idx → EReal) (ix2 r k) := by
  obtain ⟨-, -, e10, e11, -⟩ := idx_facts6 t
  unfold iblk6
  rw [View.read_apply]
  show (V c main_v45 : S1105x1024.Idx → EReal) _ = _
  congr 1
  funext a
  apply Fin.ext
  match a with
  | ⟨0, _⟩ => show win6_1.index t 0 * 1105 + 1 * q.val = r.val; rw [e10, hr]; omega
  | ⟨1, _⟩ => show win6_1.index t 1 * 1024 + 1 * k.val = k.val; rw [e11]; omega

theorem iblk6_2_apply (c : Dev nD) (t : Fin cfg6.N) (q : Fin 1105) (r : Fin 1105) (hr : r.val = 1105 * t.val + q.val) :
    (iblk6 (F := Ideal) V c 2 t : Vec Ideal S1105 .f32) (ix1 q) = (V c main_v46 : S1105.Idx → EReal) (ix1 r) := by
  obtain ⟨-, -, -, -, e20, -⟩ := idx_facts6 t
  unfold iblk6
  rw [View.read_apply]
  show (V c main_v46 : S1105.Idx → EReal) _ = _
  congr 1
  funext a
  apply Fin.ext
  match a with
  | ⟨0, _⟩ => show win6_2.index t 0 * 1105 + 1 * q.val = r.val; rw [e20, hr]; omega

theorem flushed6_3_eq (c : Dev nD) (t : Fin cfg6.N) :
    (dat6 (F := Ideal) V c).flushed 3 t
      = ((cfg6.win 3).blk t).view.read (Elt Ideal) (lin6 (V c main_v41) (V c main_v45) (V c main_v46)) := by
  show (cfg6.win 3).cut (grid6.coords t) ((dat6 V c).after 3 t) = _
  rw [after6_3, out6_3_eq]
  obtain ⟨-, -, -, -, -, e30, e31⟩ := idx_facts6 t
  refine funext fun (j : S1x1105.Idx) => ?_
  obtain ⟨p, q, rfl⟩ : ∃ (p : Fin 1) (q : Fin 1105), j = ix2 p q := ⟨j 0, j 1, eq_ix2 j⟩
  obtain rfl : p = 0 := Subsingleton.elim p 0
  show k6_pay1 (F := Ideal) (iblk6 V c 0 t) (iblk6 V c 1 t) (iblk6 V c 2 t) (ix2 0 q)
    = lin6 (V c main_v41) (V c main_v45) (V c main_v46) (((cfg6.win 3).blk t).view.emb (ix2 0 q))
  refine (pay6_apply _ _ _ q).trans ?_
  have hr : ((((cfg6.win 3).blk t).view.emb (ix2 (0 : Fin 1) q) : S1x1105.Idx) 1).val = 1105 * t.val + q.val := by
    show win6_3.index t 1 * 1105 + 1 * q.val = _
    rw [e31]; omega
  unfold lin6
  refine congrArg₂ (· + ·) (Finset.sum_congr rfl fun k _ => ?_) ?_
  · exact congrArg₂ (· * ·) (iblk6_0_apply V c t k) (iblk6_1_apply V c t q k _ hr)
  · exact iblk6_2_apply V c t q _ hr

theorem mem_blk6_3 (t : Fin cfg6.N) (i : S1x1105.Idx) :
    i ∈ ((cfg6.win 3).blk t).view.set ↔ ∀ a : Fin 2, win6_3.index t a * S1x1105.size a ≤ (i a).val ∧ (i a).val < win6_3.index t a * S1x1105.size a + S1x1105.size a := by
  show i ∈ ((View.whole main_v47).slice (win6_3.rect t)).set ↔ _
  rw [View.set_slice_whole, Rect.mem_set_unit]
  exact Iff.rfl

theorem covered6_3 (i : S1x1105.Idx) : ∃ t : Fin cfg6.N, (cfg6.win 3).flush t = true ∧ i ∈ ((cfg6.win 3).blk t).view.set := by
  have hi0 : (i 0).val < 1 := idx2_lt0 i
  have hi1 : (i 1).val < 1105 := idx2_lt1 i
  have hN : cfg6.N = 1 := N_6
  refine ⟨⟨(i 1).val / 1105, by rw [hN]; omega⟩, flush6_3 _, ?_⟩
  rw [mem_blk6_3]
  obtain ⟨-, -, -, -, -, e30, e31⟩ := idx_facts6 ⟨(i 1).val / 1105, by rw [hN]; omega⟩
  intro a
  match a with
  | ⟨0, _⟩ => show win6_3.index _ (0 : Fin 2) * 1 ≤ (i 0).val ∧ (i 0).val < win6_3.index _ (0 : Fin 2) * 1 + 1; rw [e30]; omega
  | ⟨1, _⟩ => show win6_3.index _ (1 : Fin 2) * 1105 ≤ (i 1).val ∧ (i 1).val < win6_3.index _ (1 : Fin 2) * 1105 + 1105; rw [e31]; show (i 1).val / 1105 * 1105 ≤ _ ∧ _ < (i 1).val / 1105 * 1105 + 1105; omega

theorem final6 (c : Dev nD) :
    (dat6 (F := Ideal) V c).arrAt 3 cfg6.N = lin6 (V c main_v41) (V c main_v45) (V c main_v46) :=
  (dat6 V c).arrAt_eq_of_cover 3 _ (fun t _ => flushed6_3_eq V c t) covered6_3

abbrev x6 (c : Dev nD) : FVec Ideal S1x1024 .f32 := V c main_v41

abbrev w6 (c : Dev nD) : FVec Ideal S1105x1024 .f32 := V c main_v45

abbrev b6 (c : Dev nD) : FVec Ideal S1105 .f32 := V c main_v46

/-- Column q of the result is the row x against row q of W, plus the bias at q. -/
theorem final6_apply (c : Dev nD) (q : Fin 1105) :
    (dat6 (F := Ideal) V c).arrAt 3 cfg6.N (ix2 0 q) =
      (∑ k : Fin 1024, x6 V c (ix2 0 k) * w6 V c (ix2 q k)) + b6 V c (ix1 q) := by
  rw [final6]
  exact lin6_apply _ _ _ q

end Region

end Cert.KernelIdeal.Hand

end
-- ==== Proof.Bridge.lean ====
import proofs.«163280_j13889924235715_1_alg».proof.Proof.KI.Host
import proofs.«163280_j13889924235715_1_alg».proof.Proof.KI.Val0
import proofs.«163280_j13889924235715_1_alg».proof.Proof.KI.Val1
import proofs.«163280_j13889924235715_1_alg».proof.Proof.KI.Val2
import proofs.«163280_j13889924235715_1_alg».proof.Proof.KI.Val3
import proofs.«163280_j13889924235715_1_alg».proof.Proof.KI.Val4
import proofs.«163280_j13889924235715_1_alg».proof.Proof.KI.Val5
import proofs.«163280_j13889924235715_1_alg».proof.Proof.KI.Val6
import proofs.«163280_j13889924235715_1_alg».proof.Proof.Ref.Stages

set_option maxRecDepth 16384

noncomputable section

namespace Cert.Bridge

open Idealize.ShloMosaic Idealize.ShloMosaic.TcCoe Idealize.ShloMosaic.ValueIdx
open Idealize.SL.Sem
open Cert.KernelIdeal Cert.KernelIdeal.Gen Cert.KernelIdeal.Hand

section Chains
variable {F : FTy → Type} [FloatOps F]

theorem lsm_eq : (lsmK : Vec F S1x4096 .f32 → Vec F S1x4096 .f32) = Cert.ReferenceIdeal.Stages.lsmR := by
  funext x
  unfold lsmK Cert.ReferenceIdeal.Stages.lsmR Cert.ReferenceIdeal.Stages.lsmShiftR
  rfl

theorem gru_eq : (gruK : Vec F S1x3072 .f32 → Vec F S1x3072 .f32 → Vec F S1x1024 .f32 → Vec F S1x1024 .f32) = Cert.ReferenceIdeal.Stages.gruR := by
  funext gi gh h0
  unfold gruK Cert.ReferenceIdeal.Stages.gruR Cert.ReferenceIdeal.Stages.sigmR Cert.ReferenceIdeal.Stages.oneR
  rfl
end Chains

section Args
variable (m : (ℓ : Loc nD τ sig) → Buf (Elt Ideal) ℓ) (c : Dev nD)

abbrev a0 : Vec Ideal S1 .i32 := m ((c : Thread nD τ).loc main_arg0)
abbrev a1 : Vec Ideal S1x1x1024 .f32 := m ((c : Thread nD τ).loc main_arg1)
abbrev a2 : Vec Ideal S4096x1024 .f32 := m ((c : Thread nD τ).loc main_arg2)
abbrev a3 : Vec Ideal S50257x1024 .f32 := m ((c : Thread nD τ).loc main_arg3)
abbrev a4 : Vec Ideal S4096x2048 .f32 := m ((c : Thread nD τ).loc main_arg4)
abbrev a5 : Vec Ideal S4096 .f32 := m ((c : Thread nD τ).loc main_arg5)
abbrev a6 : Vec Ideal S1024x2048 .f32 := m ((c : Thread nD τ).loc main_arg6)
abbrev a7 : Vec Ideal S1024 .f32 := m ((c : Thread nD τ).loc main_arg7)
abbrev a8 : Vec Ideal S3072x1024 .f32 := m ((c : Thread nD τ).loc main_arg8)
abbrev a9 : Vec Ideal S3072x1024 .f32 := m ((c : Thread nD τ).loc main_arg9)
abbrev a10 : Vec Ideal S3072 .f32 := m ((c : Thread nD τ).loc main_arg10)
abbrev a11 : Vec Ideal S3072 .f32 := m ((c : Thread nD τ).loc main_arg11)
abbrev a12 : Vec Ideal S50257x1024 .f32 := m ((c : Thread nD τ).loc main_arg12)
abbrev a13 : Vec Ideal S50257 .f32 := m ((c : Thread nD τ).loc main_arg13)
end Args

section KVals
variable (m : (ℓ : Loc nD τ sig) → Buf (Elt Ideal) ℓ) (outs : Outs (F := Ideal)) (c : Dev nD)

abbrev kv5 : Vec Ideal S1x1024 .f32 := V1 m c main_v5
abbrev kv6 : Vec Ideal S1x2048 .f32 := V1 m c main_v6
abbrev kv7 : Vec Ideal S1x4096 .f32 := outs 2 main_v7 c
abbrev kv8 : Vec Ideal S1x4096 .f32 := V3 m outs c main_v8
abbrev kv9 : Vec Ideal S1x1024 .f32 := outs 4 main_v9 c
abbrev kv10 : Vec Ideal S1x2048 .f32 := V5 m outs c main_v10
abbrev kv11 : Vec Ideal S1x1024 .f32 := outs 6 main_v11 c
abbrev kv12 : Vec Ideal S1x3072 .f32 := outs 7 main_v12 c
abbrev kv13 : Vec Ideal S1x3072 .f32 := outs 8 main_v13 c
abbrev kv41 : Vec Ideal S1x1024 .f32 := V9 m outs c main_v41
abbrev kv44 : Vec Ideal S1x49152 .f32 := outs 10 main_v44 c
abbrev kv47 : Vec Ideal S1x1105 .f32 := outs 12 main_v47 c
abbrev kv48 : Vec Ideal S1x50257 .f32 := V13 m outs c main_v48
end KVals

structure Leaves (m : (ℓ : Loc nD τ sig) → Buf (Elt Ideal) ℓ) (outs : Outs (F := Ideal)) : Prop where
  h2  : ∀ c, outs 2 main_v7 c   = (dat0 (F := Ideal) (fun c b => V1 m c b) c).arrAt 3 cfg0.N
  h4  : ∀ c, outs 4 main_v9 c   = (dat1 (F := Ideal) (fun c b => V3 m outs c b) c).arrAt 2 cfg1.N
  h6  : ∀ c, outs 6 main_v11 c  = (dat2 (F := Ideal) (fun c b => V5 m outs c b) c).arrAt 3 cfg2.N
  h7  : ∀ c, outs 7 main_v12 c  = (dat3 (F := Ideal) (fun c b => V6 m outs c b) c).arrAt 3 cfg3.N
  h8  : ∀ c, outs 8 main_v13 c  = (dat4 (F := Ideal) (fun c b => V7 m outs c b) c).arrAt 3 cfg4.N
  h10 : ∀ c, outs 10 main_v44 c = (dat5 (F := Ideal) (fun c b => V9 m outs c b) c).arrAt 3 cfg5.N
  h12 : ∀ c, outs 12 main_v47 c = (dat6 (F := Ideal) (fun c b => V11 m outs c b) c).arrAt 3 cfg6.N

section K
variable (m : (ℓ : Loc nD τ sig) → Buf (Elt Ideal) ℓ) (outs : Outs (F := Ideal)) (c : Dev nD)

theorem k_v6 (k : Fin 2048) :
    kv6 m c (ix2 (0 : Fin 1) k)
      = if hk : k.val < 1024 then a3 m c (ix2 (⟨(min (max (Scalar.select (IntOp.cmpi .slt (a0 m c (ix1 (0 : Fin 1))) 0#32) (IntOp.addi (a0 m c (ix1 (0 : Fin 1))) 50257#32) (a0 m c (ix1 (0 : Fin 1)))).toInt 0) ((50257 - 1 : ℕ) : ℤ)).toNat, tokRow_lt _⟩ : Fin 50257) (⟨k.val, hk⟩ : Fin 1024))
        else a1 m c (ix3 (0 : Fin 1) (0 : Fin 1) (⟨k.val - 1024, by have := k.isLt; omega⟩ : Fin 1024)) := by
  by_cases hk : k.val < 1024
  · rw [dif_pos hk]; exact V1_main_v6_row m c k hk
  · rw [dif_neg hk]; exact V1_main_v6_hid m c k (by omega)

theorem k_v5 (k : Fin 1024) : kv5 m c (ix2 (0 : Fin 1) k) = a1 m c (ix3 (0 : Fin 1) (0 : Fin 1) k) :=
  V1_main_v5_apply m c k

theorem k_v8 : kv8 m outs c = lsmK (kv7 outs c) := V3_main_v8_outs m outs c

theorem k_v10 (k : Fin 2048) :
    kv10 m outs c (ix2 (0 : Fin 1) k)
      = if hk : k.val < 1024 then a3 m c (ix2 (⟨(min (max (Scalar.select (IntOp.cmpi .slt (a0 m c (ix1 (0 : Fin 1))) 0#32) (IntOp.addi (a0 m c (ix1 (0 : Fin 1))) 50257#32) (a0 m c (ix1 (0 : Fin 1)))).toInt 0) ((50257 - 1 : ℕ) : ℤ)).toNat, tokRow_lt _⟩ : Fin 50257) (⟨k.val, hk⟩ : Fin 1024))
        else kv9 outs c (ix2 (0 : Fin 1) (⟨k.val - 1024, by have := k.isLt; omega⟩ : Fin 1024)) := by
  by_cases hk : k.val < 1024
  · rw [dif_pos hk]; exact V5_main_v10_row m outs c k hk
  · rw [dif_neg hk]; exact V5_main_v10_att m outs c k (by omega)

theorem k_v41 : kv41 m outs c = gruK (kv12 outs c) (kv13 outs c) (kv5 m c) := V9_main_v41_outs m outs c

variable (H : Leaves m outs)
include H

theorem k_v7 (q : Fin 4096) :
    kv7 outs c (ix2 (0 : Fin 1) q)
      = (∑ k : Fin 2048, kv6 m c (ix2 (0 : Fin 1) k) * a4 m c (ix2 q k)) + a5 m c (ix1 q) := by
  show (outs 2 main_v7 c : Vec Ideal S1x4096 .f32) (ix2 (0 : Fin 1) q) = _
  rw [H.h2 c]
  refine (final0_apply (fun c b => V1 m c b) c q).trans ?_
  have e4 : w0 (fun c b => V1 m c b) c = a4 m c := V1_arg m c main_arg4 (by decide)
  have e5 : b0 (fun c b => V1 m c b) c = a5 m c := V1_arg m c main_arg5 (by decide)
  rw [e4, e5]

theorem k_v9 (q : Fin 1024) :
    kv9 outs c (ix2 (0 : Fin 1) q) = ∑ k : Fin 4096, kv8 m outs c (ix2 (0 : Fin 1) k) * a2 m c (ix2 k q) := by
  show (outs 4 main_v9 c : Vec Ideal S1x1024 .f32) (ix2 (0 : Fin 1) q) = _
  rw [H.h4 c]
  refine (final1_apply (fun c b => V3 m outs c b) c q).trans ?_
  have e2 : w1 (fun c b => V3 m outs c b) c = a2 m c := V3_arg m outs c main_arg2 (by decide)
  rw [e2]

theorem k_v11 (q : Fin 1024) :
    kv11 outs c (ix2 (0 : Fin 1) q)
      = max ((∑ k : Fin 2048, kv10 m outs c (ix2 (0 : Fin 1) k) * a6 m c (ix2 q k)) + a7 m c (ix1 q)) 0 := by
  show (outs 6 main_v11 c : Vec Ideal S1x1024 .f32) (ix2 (0 : Fin 1) q) = _
  rw [H.h6 c]
  refine (final2_apply_zero (fun c b => V5 m outs c b) c q).trans ?_
  have e6 : w2 (fun c b => V5 m outs c b) c = a6 m c := V5_arg m outs c main_arg6 (by decide)
  have e7 : b2 (fun c b => V5 m outs c b) c = a7 m c := V5_arg m outs c main_arg7 (by decide)
  rw [e6, e7]

theorem k_v12 (q : Fin 3072) :
    kv12 outs c (ix2 (0 : Fin 1) q)
      = (∑ k : Fin 1024, kv11 outs c (ix2 (0 : Fin 1) k) * a8 m c (ix2 q k)) + a10 m c (ix1 q) := by
  show (outs 7 main_v12 c : Vec Ideal S1x3072 .f32) (ix2 (0 : Fin 1) q) = _
  rw [H.h7 c]
  refine (final3_apply (fun c b => V6 m outs c b) c q).trans ?_
  have ex : x3 (fun c b => V6 m outs c b) c = kv11 outs c := V6_main_v11 m outs c
  have e8 : w3 (fun c b => V6 m outs c b) c = a8 m c := V6_arg m outs c main_arg8 (by decide)
  have e10 : b3 (fun c b => V6 m outs c b) c = a10 m c := V6_arg m outs c main_arg10 (by decide)
  rw [ex, e8, e10]

theorem k_v13 (q : Fin 3072) :
    kv13 outs c (ix2 (0 : Fin 1) q)
      = (∑ k : Fin 1024, kv5 m c (ix2 (0 : Fin 1) k) * a9 m c (ix2 q k)) + a11 m c (ix1 q) := by
  show (outs 8 main_v13 c : Vec Ideal S1x3072 .f32) (ix2 (0 : Fin 1) q) = _
  rw [H.h8 c]
  refine (final4_apply (fun c b => V7 m outs c b) c q).trans ?_
  have ex : x4 (fun c b => V7 m outs c b) c = kv5 m c := V7_main_v5 m outs c
  have e9 : w4 (fun c b => V7 m outs c b) c = a9 m c := V7_arg m outs c main_arg9 (by decide)
  have e11 : b4 (fun c b => V7 m outs c b) c = a11 m c := V7_arg m outs c main_arg11 (by decide)
  rw [ex, e9, e11]

theorem k_v44 (q : Fin 49152) :
    kv44 outs c (ix2 (0 : Fin 1) q)
      = (∑ k : Fin 1024, kv41 m outs c (ix2 (0 : Fin 1) k) * a12 m c (ix2 (⟨q.val, by have := q.isLt; omega⟩ : Fin 50257) k))
          + a13 m c (ix1 (⟨q.val, by have := q.isLt; omega⟩ : Fin 50257)) := by
  show (outs 10 main_v44 c : Vec Ideal S1x49152 .f32) (ix2 (0 : Fin 1) q) = _
  rw [H.h10 c]
  refine (final5_apply (fun c b => V9 m outs c b) c q).trans ?_
  refine congrArg₂ (· + ·) (Finset.sum_congr rfl fun k _ => congrArg₂ (· * ·) rfl ?_) ?_
  · exact V9_main_v42_apply m outs c q k
  · exact V9_main_v43_apply m outs c q

theorem k_v47 (q : Fin 1105) :
    kv47 outs c (ix2 (0 : Fin 1) q)
      = (∑ k : Fin 1024, kv41 m outs c (ix2 (0 : Fin 1) k) * a12 m c (ix2 (⟨49152 + q.val, by have := q.isLt; omega⟩ : Fin 50257) k))
          + a13 m c (ix1 (⟨49152 + q.val, by have := q.isLt; omega⟩ : Fin 50257)) := by
  show (outs 12 main_v47 c : Vec Ideal S1x1105 .f32) (ix2 (0 : Fin 1) q) = _
  rw [H.h12 c]
  refine (final6_apply (fun c b => V11 m outs c b) c q).trans ?_
  have ex : x6 (fun c b => V11 m outs c b) c = kv41 m outs c := V11_main_v41 m outs c
  rw [ex]
  refine congrArg₂ (· + ·) (Finset.sum_congr rfl fun k _ => congrArg₂ (· * ·) rfl ?_) ?_
  · exact V11_main_v45_apply m outs c q k
  · exact V11_main_v46_apply m outs c q

/-- The output stage is computed in two column ranges, below and from 49152; each is the same affine map of the hidden state. -/
theorem k_v48 (q : Fin 50257) :
    kv48 m outs c (ix2 (0 : Fin 1) q)
      = (∑ k : Fin 1024, kv41 m outs c (ix2 (0 : Fin 1) k) * a12 m c (ix2 q k)) + a13 m c (ix1 q) := by
  by_cases hq : q.val < 49152
  · refine (V13_main_v48_lo m outs c q hq).trans ?_
    exact k_v44 m outs c H ⟨q.val, hq⟩
  · have hq' : 49152 ≤ q.val := by omega
    refine (V13_main_v48_hi m outs c q hq').trans ?_
    refine (k_v47 m outs c H ⟨q.val - 49152, by have := q.isLt; omega⟩).trans ?_
    have e : (⟨49152 + (q.val - 49152), by have := q.isLt; omega⟩ : Fin 50257) = q := Fin.ext (by show 49152 + (q.val - 49152) = q.val; omega)
    rw [e]
end K

section RVals
variable (m : (ℓ : Loc nD τ sig) → Buf (Elt Ideal) ℓ) (c : Dev nD)
abbrev rv8 : Vec Ideal S1x1024 .f32 := Cert.ReferenceIdeal.ReadP.val_main_v8 (F := Ideal) (a1 m c)
abbrev rv10 : Vec Ideal S1x2048 .f32 := Cert.ReferenceIdeal.ReadP.val_main_v10 (F := Ideal) (a0 m c) (a1 m c) (a3 m c)
abbrev rv14 : Vec Ideal S1x4096 .f32 := Cert.ReferenceIdeal.ReadP.val_main_v14 (F := Ideal) (a0 m c) (a1 m c) (a3 m c) (a4 m c) (a5 m c)
abbrev rv15 : Vec Ideal S1x4096 .f32 := Cert.ReferenceIdeal.ReadP.val_main_v15 (F := Ideal) (a0 m c) (a1 m c) (a3 m c) (a4 m c) (a5 m c)
abbrev rv16 : Vec Ideal S1x1024 .f32 := Cert.ReferenceIdeal.ReadP.val_main_v16 (F := Ideal) (a0 m c) (a1 m c) (a2 m c) (a3 m c) (a4 m c) (a5 m c)
abbrev rv18 : Vec Ideal S1x2048 .f32 := Cert.ReferenceIdeal.ReadP.val_main_v18 (F := Ideal) (a0 m c) (a1 m c) (a2 m c) (a3 m c) (a4 m c) (a5 m c)
abbrev rv23 : Vec Ideal S1x1024 .f32 := Cert.ReferenceIdeal.ReadP.val_main_v23 (F := Ideal) (a0 m c) (a1 m c) (a2 m c) (a3 m c) (a4 m c) (a5 m c) (a6 m c) (a7 m c)
abbrev rv27 : Vec Ideal S1x3072 .f32 := Cert.ReferenceIdeal.ReadP.val_main_v27 (F := Ideal) (a0 m c) (a1 m c) (a2 m c) (a3 m c) (a4 m c) (a5 m c) (a6 m c) (a7 m c) (a8 m c) (a10 m c)
abbrev rv31 : Vec Ideal S1x3072 .f32 := Cert.ReferenceIdeal.ReadP.val_main_v31 (F := Ideal) (a1 m c) (a9 m c) (a11 m c)
abbrev rv59 : Vec Ideal S1x1024 .f32 := Cert.ReferenceIdeal.ReadP.val_main_v59 (F := Ideal) (a0 m c) (a1 m c) (a2 m c) (a3 m c) (a4 m c) (a5 m c) (a6 m c) (a7 m c) (a8 m c) (a9 m c) (a10 m c) (a11 m c)
abbrev rv63 : Vec Ideal S1x50257 .f32 := Cert.ReferenceIdeal.ReadP.val_main_v63 (F := Ideal) (a0 m c) (a1 m c) (a2 m c) (a3 m c) (a4 m c) (a5 m c) (a6 m c) (a7 m c) (a8 m c) (a9 m c) (a10 m c) (a11 m c) (a12 m c) (a13 m c)
end RVals

section Join
variable (m : (ℓ : Loc nD τ sig) → Buf (Elt Ideal) ℓ) (outs : Outs (F := Ideal)) (c : Dev nD)

theorem e_v5 : kv5 m c = rv8 m c := by
  refine funext fun (j : S1x1024.Idx) => ?_
  obtain ⟨p, q, rfl⟩ : ∃ (p : Fin 1) (q : Fin 1024), j = ix2 p q := ⟨j 0, j 1, eq_ix2 j⟩
  obtain rfl : p = 0 := Subsingleton.elim p 0
  exact (k_v5 m c q).trans (Cert.ReferenceIdeal.Stages.val_main_v8_at (F := Ideal) (a1 m c) q).symm

theorem e_v6 : kv6 m c = rv10 m c := by
  refine funext fun (j : S1x2048.Idx) => ?_
  obtain ⟨p, q, rfl⟩ : ∃ (p : Fin 1) (q : Fin 2048), j = ix2 p q := ⟨j 0, j 1, eq_ix2 j⟩
  obtain rfl : p = 0 := Subsingleton.elim p 0
  exact (k_v6 m c q).trans (Cert.ReferenceIdeal.Stages.val_main_v10_args (F := Ideal) (a0 m c) (a1 m c) (a3 m c) q).symm

variable (H : Leaves m outs)
include H

theorem e_v7 : kv7 outs c = rv14 m c := by
  refine funext fun (j : S1x4096.Idx) => ?_
  obtain ⟨p, q, rfl⟩ : ∃ (p : Fin 1) (q : Fin 4096), j = ix2 p q := ⟨j 0, j 1, eq_ix2 j⟩
  obtain rfl : p = 0 := Subsingleton.elim p 0
  refine (k_v7 m outs c H q).trans ?_
  rw [e_v6 m c]
  exact (Cert.ReferenceIdeal.Stages.val_main_v14_stage (a0 m c) (a1 m c) (a3 m c) (a4 m c) (a5 m c) q).symm

theorem e_v8 : kv8 m outs c = rv15 m c := by
  rw [k_v8 m outs c, e_v7 m outs c H, lsm_eq]
  exact (Cert.ReferenceIdeal.Stages.val_main_v15_eq_lsmR (F := Ideal) (a0 m c) (a1 m c) (a3 m c) (a4 m c) (a5 m c)).symm

theorem e_v9 : kv9 outs c = rv16 m c := by
  refine funext fun (j : S1x1024.Idx) => ?_
  obtain ⟨p, q, rfl⟩ : ∃ (p : Fin 1) (q : Fin 1024), j = ix2 p q := ⟨j 0, j 1, eq_ix2 j⟩
  obtain rfl : p = 0 := Subsingleton.elim p 0
  refine (k_v9 m outs c H q).trans ?_
  rw [e_v8 m outs c H]
  exact (Cert.ReferenceIdeal.Stages.val_main_v16_stage (a0 m c) (a1 m c) (a2 m c) (a3 m c) (a4 m c) (a5 m c) q).symm

theorem e_v10 : kv10 m outs c = rv18 m c := by
  refine funext fun (j : S1x2048.Idx) => ?_
  obtain ⟨p, q, rfl⟩ : ∃ (p : Fin 1) (q : Fin 2048), j = ix2 p q := ⟨j 0, j 1, eq_ix2 j⟩
  obtain rfl : p = 0 := Subsingleton.elim p 0
  refine (k_v10 m outs c q).trans ?_
  rw [e_v9 m outs c H]
  exact (Cert.ReferenceIdeal.Stages.val_main_v18_args (F := Ideal) (a0 m c) (a1 m c) (a2 m c) (a3 m c) (a4 m c) (a5 m c) q).symm

theorem e_v11 : kv11 outs c = rv23 m c := by
  refine funext fun (j : S1x1024.Idx) => ?_
  obtain ⟨p, q, rfl⟩ : ∃ (p : Fin 1) (q : Fin 1024), j = ix2 p q := ⟨j 0, j 1, eq_ix2 j⟩
  obtain rfl : p = 0 := Subsingleton.elim p 0
  refine (k_v11 m outs c H q).trans ?_
  rw [e_v10 m outs c H]
  refine ((Cert.ReferenceIdeal.Stages.val_main_v23_at (a0 m c) (a1 m c) (a2 m c) (a3 m c) (a4 m c) (a5 m c) (a6 m c) (a7 m c) q).trans ?_).symm
  rw [Cert.ReferenceIdeal.Stages.val_main_v22_stage]

theorem e_v12 : kv12 outs c = rv27 m c := by
  refine funext fun (j : S1x3072.Idx) => ?_
  obtain ⟨p, q, rfl⟩ : ∃ (p : Fin 1) (q : Fin 3072), j = ix2 p q := ⟨j 0, j 1, eq_ix2 j⟩
  obtain rfl : p = 0 := Subsingleton.elim p 0
  refine (k_v12 m outs c H q).trans ?_
  rw [e_v11 m outs c H]
  exact (Cert.ReferenceIdeal.Stages.val_main_v27_stage (a0 m c) (a1 m c) (a2 m c) (a3 m c) (a4 m c) (a5 m c) (a6 m c) (a7 m c) (a8 m c) (a10 m c) q).symm

theorem e_v13 : kv13 outs c = rv31 m c := by
  refine funext fun (j : S1x3072.Idx) => ?_
  obtain ⟨p, q, rfl⟩ : ∃ (p : Fin 1) (q : Fin 3072), j = ix2 p q := ⟨j 0, j 1, eq_ix2 j⟩
  obtain rfl : p = 0 := Subsingleton.elim p 0
  refine (k_v13 m outs c H q).trans ?_
  rw [e_v5 m c]
  exact (Cert.ReferenceIdeal.Stages.val_main_v31_stage (a1 m c) (a9 m c) (a11 m c) q).symm

theorem e_v41 : kv41 m outs c = rv59 m c := by
  rw [k_v41 m outs c, e_v12 m outs c H, e_v13 m outs c H, e_v5 m c, gru_eq]
  exact (Cert.ReferenceIdeal.Stages.val_main_v59_eq_gruR (F := Ideal) (a0 m c) (a1 m c) (a2 m c) (a3 m c) (a4 m c) (a5 m c) (a6 m c) (a7 m c) (a8 m c) (a9 m c) (a10 m c) (a11 m c)).symm

/-- Stage by stage both programs hold the same array of the fourteen arguments; the last stage is the result. -/
theorem e_v48 : kv48 m outs c = rv63 m c := by
  refine funext fun (j : S1x50257.Idx) => ?_
  obtain ⟨p, q, rfl⟩ : ∃ (p : Fin 1) (q : Fin 50257), j = ix2 p q := ⟨j 0, j 1, eq_ix2 j⟩
  obtain rfl : p = 0 := Subsingleton.elim p 0
  refine (k_v48 m outs c H q).trans ?_
  rw [e_v41 m outs c H]
  exact (Cert.ReferenceIdeal.Stages.val_main_v63_stage (a0 m c) (a1 m c) (a2 m c) (a3 m c) (a4 m c) (a5 m c) (a6 m c) (a7 m c) (a8 m c) (a9 m c) (a10 m c) (a11 m c) (a12 m c) (a13 m c) q).symm
end Join

theorem result_eq (m : (ℓ : Loc nD τ sig) → Buf (Elt Ideal) ℓ) (outs : Outs (F := Ideal)) (c : Dev nD) (H : Leaves m outs) :
    Cert.ReferenceIdeal.ReadP.val_main_v63 (F := Ideal) (a0 m c) (a1 m c) (a2 m c) (a3 m c) (a4 m c) (a5 m c) (a6 m c) (a7 m c) (a8 m c) (a9 m c) (a10 m c) (a11 m c) (a12 m c) (a13 m c)
      = (V13 m outs c main_v48 : Vec Ideal S1x50257 .f32) :=
  (e_v48 m outs c H).symm

end Cert.Bridge

end
-- ==== Proof.lean ====
import proofs.«163280_j13889924235715_1_alg».proof.Defs
import proofs.«163280_j13889924235715_1_alg».proof.Proof.Gen.Kernel
import proofs.«163280_j13889924235715_1_alg».proof.Proof.Gen.KernelIdeal
import proofs.«163280_j13889924235715_1_alg».proof.Proof.Gen.ReferenceIdeal
import proofs.«163280_j13889924235715_1_alg».proof.Proof.Gen.Pre_finite_inputs
import proofs.«163280_j13889924235715_1_alg».proof.Proof.K.Run
import proofs.«163280_j13889924235715_1_alg».proof.Proof.KI.Run
import proofs.«163280_j13889924235715_1_alg».proof.Proof.Ref.Stages
import proofs.«163280_j13889924235715_1_alg».proof.Proof.Ref.RunStages
import proofs.«163280_j13889924235715_1_alg».proof.Proof.Bridge

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.result m ρ)

theorem frame_ki : Cert.frame_KernelIdeal := fun m ρ _ =>
  (θ_run Cert.KernelIdeal.defs _ _).mono (fun _ h c => (h c).2) (Cert.KernelIdeal.Hand.result m ρ)

theorem frame_ri : Cert.frame_ReferenceIdeal := fun m ρ _ =>
  (θ_run Cert.ReferenceIdeal.defs _ _).mono (fun _ h c => (h c).2) (Cert.ReferenceIdeal.RunStages.run (F := Ideal) m ρ)

theorem preserves : Cert.preserves_Kernel_KernelIdeal := trivial

open Cert.KernelIdeal Cert.KernelIdeal.Gen Cert.KernelIdeal.Hand in
/-- From memories that agree on the arguments both programs end with one function of those arguments in their result. -/
theorem algebraic : Cert.algebraic_KernelIdeal_ReferenceIdeal := by
  intro m ρ m' ρ' _ hagree
  refine ⟨fun c => V13 m (outs m) c main_v48, Cert.KernelIdeal.Hand.result (F := Ideal) m ρ, ?_⟩
  refine (θ_run Cert.ReferenceIdeal.defs _ _).mono (fun _ h c => ⟨(h c).1.trans ?_, (h c).2⟩)
    (Cert.ReferenceIdeal.RunStages.run (F := Ideal) m' ρ')
  obtain ⟨e0, e1, e2, e3, e4, e5, e6, e7, e8, e9, e10, e11, e12, e13⟩ := hagree c
  rw [e0, e1, e2, e3, e4, e5, e6, e7, e8, e9, e10, e11, e12, e13]
  refine Cert.Bridge.result_eq m (outs m) c ⟨?_, ?_, ?_, ?_, ?_, ?_, ?_⟩
  · intro c
    exact (outs_2 m c).trans (congrArg (fun V => (dat0 (F := Ideal) V c).arrAt 3 cfg0.N) (funext fun c => funext fun b => Vt1_eq m c b))
  · intro c
    exact (outs_4 m c).trans (congrArg (fun V => (dat1 (F := Ideal) V c).arrAt 2 cfg1.N) (funext fun c => funext fun b => Vt3_eq m c b))
  · intro c
    exact (outs_6 m c).trans (congrArg (fun V => (dat2 (F := Ideal) V c).arrAt 3 cfg2.N) (funext fun c => funext fun b => Vt5_eq m c b))
  · intro c
    exact (outs_7 m c).trans (congrArg (fun V => (dat3 (F := Ideal) V c).arrAt 3 cfg3.N) (funext fun c => funext fun b => Vt6_eq m c b))
  · intro c
    exact (outs_8 m c).trans (congrArg (fun V => (dat4 (F := Ideal) V c).arrAt 3 cfg4.N) (funext fun c => funext fun b => Vt7_eq m c b))
  · intro c
    exact (outs_10 m c).trans (congrArg (fun V => (dat5 (F := Ideal) V c).arrAt 3 cfg5.N) (funext fun c => funext fun b => Vt9_eq m c b))
  · intro c
    exact (outs_12 m c).trans (congrArg (fun V => (dat6 (F := Ideal) V c).arrAt 3 cfg6.N) (funext fun c => funext fun b => Vt11_eq m c b))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
